-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x256 .f32) (main_arg10 : FVec F S128 .f32) (main_arg11 : FVec F S128x128 .f32) (main_arg12 : FVec F S128 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128x128 .f32) (main_arg7 : FVec F S128x256 .f32) (main_arg8 : FVec F S128 .f32) (main_arg9 : FVec F S128x256 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S50000 32) (main_arg3 : FVec F S128x128 .f32) (main_arg4 : FVec F S128x128 .f32) (main_arg5 : FVec F S128x128 .f32) (main_arg6 : FVec F S128x128 .f32) (main_arg7 : FVec F S128x256 .f32) (main_arg8 : FVec F S128 .f32) (main_arg9 : FVec F S128x256 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S50000x1 : Shape := ⟨2, ![50000, 1]⟩
abbrev S2000x128 : Shape := ⟨2, ![2000, 128]⟩
abbrev S2000 : Shape := ⟨1, ![2000]⟩
abbrev S2000x1 : Shape := ⟨2, ![2000, 1]⟩
abbrev S_ : Shape := ⟨0, ![]⟩
abbrev S600000x1 : Shape := ⟨2, ![600000, 1]⟩
abbrev S600000x128 : Shape := ⟨2, ![600000, 128]⟩
abbrev S2000x256 : Shape := ⟨2, ![2000, 256]⟩
abbrev S1x128 : Shape := ⟨2, ![1, 128]⟩
abbrev S128x1 : Shape := ⟨2, ![128, 1]⟩

abbrev nBuf : Space → Nat
  | .hbm => 72
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S50000x1, .i32⟩
  | .hbm, ⟨18, _⟩ => ⟨S128x128, .bf16⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S128x256, .bf16⟩
  | .hbm, ⟨23, _⟩ => ⟨S128x256, .bf16⟩
  | .hbm, ⟨24, _⟩ => ⟨S128x128, .bf16⟩
  | .hbm, ⟨25, _⟩ => ⟨S50000x128, .f32⟩
  | .hbm, ⟨26, _⟩ => ⟨S_, .f32⟩
  | .hbm, ⟨27, _⟩ => ⟨S600000, .f32⟩
  | .hbm, ⟨28, _⟩ => ⟨S_, .f32⟩
  | .hbm, ⟨29, _⟩ => ⟨S50000, .f32⟩
  | .hbm, ⟨30, _⟩ => ⟨S600000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S_, .f32⟩
  | .hbm, ⟨65, _⟩ => ⟨S50000x128, .f32⟩
  | .hbm, ⟨66, _⟩ => ⟨S600000x1, .i32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S128x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .bf16⟩
  | .local _ .vmem, ⟨9, _⟩ => ⟨S128x128, .bf16⟩
  | .local _ .vmem, ⟨10, _⟩ => ⟨S128x256, .bf16⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .bf16⟩
  | .local _ .vmem, ⟨19, _⟩ => ⟨S128x128, .bf16⟩
  | .local _ .vmem, ⟨20, _⟩ => ⟨S128x256, .bf16⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .i32⟩
  | .local _ .vmem, ⟨27, _⟩ => ⟨S2000x1, .i32⟩
  | .local _ .vmem, ⟨28, _⟩ => ⟨S128x128, .bf16⟩
  | .local _ .vmem, ⟨29, _⟩ => ⟨S128, .f32⟩
  | .local _ .vmem, ⟨30, _⟩ => ⟨S128x128, .f32⟩
  | .local _ .vmem, ⟨31, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S50000_S50000x1 : S50000.ShapeCasts S50000x1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S2000x128_S2000x128_S2000x256_d1 : Shape.Concatenates [S2000x128, S2000x128] S2000x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  natLt_1_32 : 1 < 32
  broadcasts_S1x128_S128x128 : S1x128.Broadcasts S128x128
  reduces_S128x128_S128 : S128x128.Reduces [1] S128
  shapeCasts_S128_S128x1 : S128.ShapeCasts S128x1
  broadcasts_S128x1_S128x128 : S128x1.Broadcasts S128x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_1_0_0_n_n_wf : DotDims.WF S2000x128 S128x128 S2000x128 [1] [1] [0] [0] [] []
  dot_S2000x256_S128x256_S2000x128_1_1_0_0_n_n_wf : DotDims.WF S2000x256 S128x256 S2000x128 [1] [1] [0] [0] [] []
  dot_S2000x128_S2000x128_S128x128_0_0_1_1_n_n_wf : DotDims.WF S2000x128 S2000x128 S128x128 [0] [0] [1] [1] [] []
  dot_S128x128_S128x128_S128x128_1_1_0_0_n_n_wf : DotDims.WF S128x128 S128x128 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .bf16 = 32 ∨ (Rect.block (s := S128x256) S128x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .bf16 = 32 ∨ (Rect.block (s := S128x256) S128x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def dot_S2000x256_S128x256_S2000x128_1_1_0_0_n_n : DotDims S2000x256 S128x256 S2000x128 where
  lhsContracting := [1]
  rhsContracting := [1]
  lhsNonContracting := [0]
  rhsNonContracting := [0]
  lhsBatch := []
  rhsBatch := []
  wf := dot_S2000x256_S128x256_S2000x128_1_1_0_0_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x128_S128x128_1_1_0_0_n_n : DotDims S128x128 S128x128 S128x128 where
  lhsContracting := [1]
  rhsContracting := [1]
  lhsNonContracting := [0]
  rhsNonContracting := [0]
  lhsBatch := []
  rhsBatch := []
  wf := dot_S128x128_S128x128_S128x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S128x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S_ : Shape := ⟨0, ![]⟩
abbrev S50000x1 : Shape := ⟨2, ![50000, 1]⟩
abbrev S600000x1 : Shape := ⟨2, ![600000, 1]⟩
abbrev S600000x128 : Shape := ⟨2, ![600000, 128]⟩
abbrev S50000x256 : Shape := ⟨2, ![50000, 256]⟩
abbrev S256x128 : Shape := ⟨2, ![256, 128]⟩
abbrev S1x128 : Shape := ⟨2, ![1, 128]⟩
abbrev S128x1 : Shape := ⟨2, ![128, 1]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128x128, .f32⟩
  | 5 => ⟨S128x128, .f32⟩
  | 6 => ⟨S128x128, .f32⟩
  | 7 => ⟨S128x256, .f32⟩
  | 8 => ⟨S128, .f32⟩
  | 9 => ⟨S128x256, .f32⟩
  | 10 => ⟨S128, .f32⟩
  | 11 => ⟨S128x128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S_, .f32⟩
  | 46 => ⟨S600000, .f32⟩
  | 47 => ⟨S_, .f32⟩
  | 48 => ⟨S50000, .f32⟩
  | 49 => ⟨S600000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S128x128, .f32⟩
  | 58 => ⟨S50000x128, .f32⟩
  | 59 => ⟨S128x128, .f32⟩
  | 60 => ⟨S50000x128, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S50000x1, .f32⟩
  | 67 => ⟨S_, .f32⟩
  | 68 => ⟨S50000x1, .f32⟩
  | 69 => ⟨S50000x1, .f32⟩
  | 70 => ⟨S50000x128, .f32⟩
  | 71 => ⟨S50000x128, .f32⟩
  | 72 => ⟨S_, .f32⟩
  | 73 => ⟨S50000x128, .f32⟩
  | 74 => ⟨S50000x128, .i1⟩
  | 75 => ⟨S_, .f32⟩
  | 76 => ⟨S50000x128, .f32⟩
  | 77 => ⟨S50000x128, .f32⟩
  | 78 => ⟨S50000x128, .f32⟩
  | 79 => ⟨S50000x256, .f32⟩
  | 80 => ⟨S256x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .i1⟩
  | 88 => ⟨S_, .f32⟩
  | 89 => ⟨S50000x128, .f32⟩
  | 90 => ⟨S50000x128, .f32⟩
  | 91 => ⟨S50000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .f32⟩
  | 102 => ⟨S50000x128, .f32⟩
  | 103 => ⟨S600000x1, .i32⟩
  | 104 => ⟨S50000x128, .f32⟩
  | 105 => ⟨S_, .f32⟩
  | 106 => ⟨S600000, .f32⟩
  | 107 => ⟨S_, .f32⟩
  | 108 => ⟨S50000, .f32⟩
  | 109 => ⟨S600000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S128x128, .f32⟩
  | 118 => ⟨S50000x128, .f32⟩
  | 119 => ⟨S128x128, .f32⟩
  | 120 => ⟨S50000x128, .f32⟩
  | 121 => ⟨S50000x128, .f32⟩
  | 122 => ⟨S50000x128, .f32⟩
  | 123 => ⟨S_, .f32⟩
  | 124 => ⟨S50000, .f32⟩
  | 125 => ⟨S50000x1, .f32⟩
  | 126 => ⟨S50000x1, .f32⟩
  | 127 => ⟨S_, .f32⟩
  | _ => ⟨S50000x128, .f32⟩

abbrev hbmTy0_1 (i : Nat) : BufTy := match i % 128 with
  | 0 => ⟨S50000x1, .f32⟩
  | 1 => ⟨S50000x1, .f32⟩
  | 2 => ⟨S50000x128, .f32⟩
  | 3 => ⟨S50000x128, .f32⟩
  | 4 => ⟨S_, .f32⟩
  | 5 => ⟨S50000x128, .f32⟩
  | 6 => ⟨S50000x128, .i1⟩
  | 7 => ⟨S_, .f32⟩
  | 8 => ⟨S50000x128, .f32⟩
  | 9 => ⟨S50000x128, .f32⟩
  | 10 => ⟨S50000x128, .f32⟩
  | 11 => ⟨S50000x256, .f32⟩
  | 12 => ⟨S256x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .i1⟩
  | 20 => ⟨S_, .f32⟩
  | 21 => ⟨S50000x128, .f32⟩
  | 22 => ⟨S50000x128, .f32⟩
  | 23 => ⟨S50000x128, .f32⟩
  | 24 => ⟨S_, .f32⟩
  | 25 => ⟨S128x128, .f32⟩
  | 26 => ⟨S50000x1, .i32⟩
  | 27 => ⟨S128x128, .f32⟩
  | 28 => ⟨S128x128, .f32⟩
  | 29 => ⟨S128x128, .f32⟩
  | 30 => ⟨S1x128, .f32⟩
  | 31 => ⟨S128x128, .f32⟩
  | 32 => ⟨S128x128, .f32⟩
  | 33 => ⟨S_, .f32⟩
  | 34 => ⟨S128x128, .f32⟩
  | 35 => ⟨S128x128, .i1⟩
  | 36 => ⟨S_, .f32⟩
  | 37 => ⟨S128x128, .f32⟩
  | 38 => ⟨S128x128, .f32⟩
  | 39 => ⟨S128x128, .f32⟩
  | 40 => ⟨S128x128, .f32⟩
  | 41 => ⟨S_, .f32⟩
  | 42 => ⟨S128, .f32⟩
  | 43 => ⟨S128x1, .f32⟩
  | 44 => ⟨S128x1, .f32⟩
  | 45 => ⟨S_, .f32⟩
  | 46 => ⟨S128x1, .f32⟩
  | 47 => ⟨S128x1, .f32⟩
  | 48 => ⟨S128x128, .f32⟩
  | 49 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_17 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_19 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_21 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_22 : Ref sig .tc := ⟨.hbm, 132, rfl⟩
abbrev main_v93 : Ref sig .tc := ⟨.hbm, 133, rfl⟩
abbrev main_v94 : Ref sig .tc := ⟨.hbm, 134, rfl⟩
abbrev main_cst_23 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_24 : Ref sig .tc := ⟨.hbm, 145, rfl⟩
abbrev main_v104 : Ref sig .tc := ⟨.hbm, 146, rfl⟩
abbrev main_v105 : Ref sig .tc := ⟨.hbm, 147, rfl⟩
abbrev main_cst_25 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_26 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_27 : Ref sig .tc := ⟨.hbm, 161, rfl⟩
abbrev main_v117 : Ref sig .tc := ⟨.hbm, 162, rfl⟩
abbrev main_v118 : Ref sig .tc := ⟨.hbm, 163, rfl⟩
abbrev main_cst_28 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_29 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_30 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  reducesTo_S50000x128_S50000_d1 : S50000x128.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S_S50000x1 : S_.BroadcastsInDim S50000x1 (![] : Fin 0 → Fin S50000x1.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  reducesTo_S128x128_S128_d1 : S128x128.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.K.R0Defs.lean ====
import proofs.«425038_j72541997629469_1_alg».proof.Proof.Gen.Kernel.Launch
import proofs.«425038_j72541997629469_1_alg».proof.Proof.Gen.Kernel.Skeleton
import proofs.«425038_j72541997629469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rB0 : Rect S2000x128 := Rect.unit (s := S2000x128) ![0, 0] S2000x128.size inb_S2000x128_S2000x128_0_0

def out0_1 (x0 : Vec F S2000x128 .f32) : Vec F S2000x128 .f32 :=
  View.canon [⟨rB0, k0_pay1 (View.ld x0 rB0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

end Cert.Kernel.Hand

end
-- ==== Proof.K.R1Defs.lean ====
import proofs.«425038_j72541997629469_1_alg».proof.Proof.Gen.Kernel.Launch
import proofs.«425038_j72541997629469_1_alg».proof.Proof.Gen.Kernel.Skeleton
import proofs.«425038_j72541997629469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rB1 : Rect S2000x128 := Rect.unit (s := S2000x128) ![0, 0] S2000x128.size inb_S2000x128_S2000x128_0_0
abbrev rW1 : Rect S128x128 := Rect.unit (s := S128x128) ![0, 0] S128x128.size inb_S128x128_S128x128_0_0
abbrev rW21 : Rect S128x256 := Rect.unit (s := S128x256) ![0, 0] S128x256.size inb_S128x256_S128x256_0_0
abbrev rV1 : Rect S128 := Rect.unit (s := S128) ![0] S128.size inb_S128_S128_0

def out1_6 (x0 x1 : Vec F S2000x128 .f32) (x2 x3 : Vec F S128x128 .bf16) (x4 : Vec F S128x256 .bf16) (x5 : Vec F S128 .f32) :
    Vec F S2000x128 .f32 :=
  View.canon [⟨rB1, k1_pay1
    (k1_pay2 (View.ld x0 rB1) (View.ld x1 rB1) (View.ld x2 rW1) (View.ld x3 rW1) (View.ld x4 rW21) (View.ld x5 rV1))
    (k1_pay3 (View.ld x0 rB1) (View.ld x1 rB1) (View.ld x2 rW1) (View.ld x3 rW1) (View.ld x4 rW21) (View.ld x5 rV1))
    (k1_pay4 (View.ld x0 rB1) (View.ld x1 rB1) (View.ld x2 rW1) (View.ld x3 rW1) (View.ld x4 rW21) (View.ld x5 rV1))⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

end Cert.Kernel.Hand

end
-- ==== Proof.K.R2Defs.lean ====
import proofs.«425038_j72541997629469_1_alg».proof.Proof.Gen.Kernel.Launch
import proofs.«425038_j72541997629469_1_alg».proof.Proof.Gen.Kernel.Skeleton
import proofs.«425038_j72541997629469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rB2 : Rect S2000x128 := Rect.unit (s := S2000x128) ![0, 0] S2000x128.size inb_S2000x128_S2000x128_0_0
abbrev rW2 : Rect S128x128 := Rect.unit (s := S128x128) ![0, 0] S128x128.size inb_S128x128_S128x128_0_0
abbrev rW22 : Rect S128x256 := Rect.unit (s := S128x256) ![0, 0] S128x256.size inb_S128x256_S128x256_0_0
abbrev rV2 : Rect S128 := Rect.unit (s := S128) ![0] S128.size inb_S128_S128_0

def out2_6 (x0 x1 : Vec F S2000x128 .f32) (x2 x3 : Vec F S128x128 .bf16) (x4 : Vec F S128x256 .bf16) (x5 : Vec F S128 .f32) :
    Vec F S2000x128 .f32 :=
  View.canon [⟨rB2, k2_pay1
    (k2_pay2 (View.ld x0 rB2) (View.ld x1 rB2) (View.ld x2 rW2) (View.ld x3 rW2) (View.ld x4 rW22) (View.ld x5 rV2))
    (k2_pay3 (View.ld x0 rB2) (View.ld x1 rB2) (View.ld x2 rW2) (View.ld x3 rW2) (View.ld x4 rW22) (View.ld x5 rV2))
    (k2_pay4 (View.ld x0 rB2) (View.ld x1 rB2) (View.ld x2 rW2) (View.ld x3 rW2) (View.ld x4 rW22) (View.ld x5 rV2))⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

end Cert.Kernel.Hand

end
-- ==== Proof.K.R3Defs.lean ====
import proofs.«425038_j72541997629469_1_alg».proof.Proof.Gen.Kernel.Launch
import proofs.«425038_j72541997629469_1_alg».proof.Proof.Gen.Kernel.Skeleton
import proofs.«425038_j72541997629469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rB3 : Rect S2000x128 := Rect.unit (s := S2000x128) ![0, 0] S2000x128.size inb_S2000x128_S2000x128_0_0
abbrev rL3 : Rect S2000x1 := Rect.unit (s := S2000x1) ![0, 0] S2000x1.size inb_S2000x1_S2000x1_0_0
abbrev rW3 : Rect S128x128 := Rect.unit (s := S128x128) ![0, 0] S128x128.size inb_S128x128_S128x128_0_0
abbrev rV3 : Rect S128 := Rect.unit (s := S128) ![0] S128.size inb_S128_S128_0

abbrev scM3 : Memref sig .tc .vmem S128x128 .f32 := Memref.whole cc3_scratch0

def accZero : Vec F S128x128 .f32 := View.canon [⟨rW3, k3_pay1 (F := F)⟩]

def accStep (h : Vec F S2000x128 .f32) (lab : Vec F S2000x1 .i32) (a : Vec F S128x128 .f32) : Vec F S128x128 .f32 :=
  View.canon [⟨rW3, k3_pay2 (View.ld h rB3) (View.ld lab rL3) (View.ld a rW3)⟩]

def accAt (c : Dev nD) : (n : ℕ) → n < cfg3.N → Vec F S128x128 .f32
  | 0, hn => accStep (iblk3 V c 0 ⟨0, hn⟩) (iblk3 V c 1 ⟨0, hn⟩) accZero
  | n + 1, hn => accStep (iblk3 V c 0 ⟨n + 1, hn⟩) (iblk3 V c 1 ⟨n + 1, hn⟩) (accAt c n (Nat.lt_of_succ_lt hn))

theorem accAt_zero (c : Dev nD) (hn : 0 < cfg3.N) :
    accAt V c 0 hn = accStep (iblk3 V c 0 ⟨0, hn⟩) (iblk3 V c 1 ⟨0, hn⟩) accZero := rfl
theorem accAt_succ (c : Dev nD) (n : ℕ) (hn : n + 1 < cfg3.N) :
    accAt V c (n + 1) hn = accStep (iblk3 V c 0 ⟨n + 1, hn⟩) (iblk3 V c 1 ⟨n + 1, hn⟩) (accAt V c n (Nat.lt_of_succ_lt hn)) := rfl

def out3_4 (w : Vec F S128x128 .bf16) (b : Vec F S128 .f32) (a : Vec F S128x128 .f32) : Vec F S128x128 .f32 :=
  View.canon [⟨rW3, k3_pay3 (View.ld w rW3) (View.ld b rV3) (View.ld a rW3)⟩]

def PhiS3 (c : Dev nD) : (n : ℕ) → n ≤ cfg3.N → sProp 𝕄
  | 0, _ => Pipeline.ΦA spec3 c
  | n + 1, hn => iprop(owns (c : Thread nD τ) scM3 fullShare (accAt V c n hn)
      ∗ Pipeline.scopedRestBut (Ix := Unit) (Name := ℕ) (U := UR sig nD τ) (Lvl := ℕ) (Val := Elt F) spec3 c [cc3_scratch0]
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 2 t) (iblk3 V c 3 t) (accAt V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t
    = out3_4 (iblk3 V c 2 t) (iblk3 V c 3 t) (accAt V c t.val t.isLt) := by dsimp only [dat3]

end Cert.Kernel.Hand

end
-- ==== Proof.K.Bounds.lean ====
import proofs.«425038_j72541997629469_1_alg».proof.Proof.K.R0Defs
import proofs.«425038_j72541997629469_1_alg».proof.Proof.K.R1Defs
import proofs.«425038_j72541997629469_1_alg».proof.Proof.K.R2Defs
import proofs.«425038_j72541997629469_1_alg».proof.Proof.K.R3Defs
import proofs.«425038_j72541997629469_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

abbrev vr (W : Dev nD → Valuation τ sig (Elt F)) : (c : Dev nD) → (b : Ref sig .tc) → Buf (Elt F) ((c : Thread nD τ).loc b) :=
  fun c b => W c b

variable (m : (ℓ : Loc nD τ sig) → Buf (Elt F) ℓ)

abbrev B1 (c : Dev nD) : Valuation τ sig (Elt F) := V1 m c

@[irreducible] def o2 (c : Dev nD) : Buf (Elt F) ((c : Thread nD τ).loc main_v12) := (dat0 (vr (B1 m)) c).arrAt 1 cfg0.N

abbrev B2 (c : Dev nD) : Valuation τ sig (Elt F) := Function.update (B1 m c) main_v12 (o2 m c)

abbrev B3 (c : Dev nD) : Valuation τ sig (Elt F) := StableHlo.after hostOps1 (B2 m c)

@[irreducible] def o4 (c : Dev nD) : Buf (Elt F) ((c : Thread nD τ).loc main_v34) := (dat1 (vr (B3 m)) c).arrAt 6 cfg1.N

abbrev B4 (c : Dev nD) : Valuation τ sig (Elt F) := Function.update (B3 m c) main_v34 (o4 m c)

abbrev B5 (c : Dev nD) : Valuation τ sig (Elt F) := StableHlo.after hostOps2 (B4 m c)

@[irreducible] def o6 (c : Dev nD) : Buf (Elt F) ((c : Thread nD τ).loc main_v47) := (dat2 (vr (B5 m)) c).arrAt 6 cfg2.N

abbrev B6 (c : Dev nD) : Valuation τ sig (Elt F) := Function.update (B5 m c) main_v47 (o6 m c)

@[irreducible] def o7 (c : Dev nD) : Buf (Elt F) ((c : Thread nD τ).loc main_v48) := (dat3 (vr (B6 m)) c).arrAt 4 cfg3.N

abbrev B7 (c : Dev nD) : Valuation τ sig (Elt F) := Function.update (B6 m c) main_v48 (o7 m c)

def outsB : Outs (F := F) := fun J r c =>
  if J = 2 then B2 m c r else if J = 4 then B4 m c r else if J = 6 then B6 m c r else B7 m c r

theorem o2_def (c : Dev nD) : o2 m c = (dat0 (vr (B1 m)) c).arrAt 1 cfg0.N := by unfold o2; rfl
theorem o4_def (c : Dev nD) : o4 m c = (dat1 (vr (B3 m)) c).arrAt 6 cfg1.N := by unfold o4; rfl
theorem o6_def (c : Dev nD) : o6 m c = (dat2 (vr (B5 m)) c).arrAt 6 cfg2.N := by unfold o6; rfl
theorem o7_def (c : Dev nD) : o7 m c = (dat3 (vr (B6 m)) c).arrAt 4 cfg3.N := by unfold o7; rfl

theorem outs2 (c : Dev nD) : outsB m 2 main_v12 c = o2 m c := by
  unfold outsB; rw [if_pos rfl]; exact Function.update_self ..
theorem outs4 (c : Dev nD) : outsB m 4 main_v34 c = o4 m c := by
  unfold outsB; rw [if_neg (by decide), if_pos rfl]; exact Function.update_self ..
theorem outs6 (c : Dev nD) : outsB m 6 main_v47 c = o6 m c := by
  unfold outsB; rw [if_neg (by decide), if_neg (by decide), if_pos rfl]; exact Function.update_self ..
theorem outs7 (c : Dev nD) : outsB m 7 main_v48 c = o7 m c := by
  unfold outsB; rw [if_neg (by decide), if_neg (by decide), if_neg (by decide)]; exact Function.update_self ..

theorem V2_eq (c : Dev nD) : V2 m (outsB m) c = B2 m c := by
  show Function.update (V1 m c) main_v12 (outsB m 2 main_v12 c) = Function.update (V1 m c) main_v12 (o2 m c)
  rw [outs2]
theorem V3_eq (c : Dev nD) : V3 m (outsB m) c = B3 m c := by
  show StableHlo.after hostOps1 (V2 m (outsB m) c) = StableHlo.after hostOps1 (B2 m c)
  rw [V2_eq]
theorem V4_eq (c : Dev nD) : V4 m (outsB m) c = B4 m c := by
  show Function.update (V3 m (outsB m) c) main_v34 (outsB m 4 main_v34 c) = Function.update (B3 m c) main_v34 (o4 m c)
  rw [V3_eq, outs4]
theorem V5_eq (c : Dev nD) : V5 m (outsB m) c = B5 m c := by
  show StableHlo.after hostOps2 (V4 m (outsB m) c) = StableHlo.after hostOps2 (B4 m c)
  rw [V4_eq]
theorem V6_eq (c : Dev nD) : V6 m (outsB m) c = B6 m c := by
  show Function.update (V5 m (outsB m) c) main_v47 (outsB m 6 main_v47 c) = Function.update (B5 m c) main_v47 (o6 m c)
  rw [V5_eq, outs6]
theorem V7_eq (c : Dev nD) : V7 m (outsB m) c = B7 m c := by
  show Function.update (V6 m (outsB m) c) main_v48 (outsB m 7 main_v48 c) = Function.update (B6 m c) main_v48 (o7 m c)
  rw [V6_eq, outs7]

theorem B2_ne (c : Dev nD) (b : Ref sig .tc) (h : b ≠ main_v12) : vr (B2 m) c b = vr (B1 m) c b :=
  Function.update_of_ne (StableHlo.devRef_ne_of_ne h) _ _
theorem B4_ne (c : Dev nD) (b : Ref sig .tc) (h : b ≠ main_v34) : vr (B4 m) c b = vr (B3 m) c b :=
  Function.update_of_ne (StableHlo.devRef_ne_of_ne h) _ _
theorem B6_ne (c : Dev nD) (b : Ref sig .tc) (h : b ≠ main_v47) : vr (B6 m) c b = vr (B5 m) c b :=
  Function.update_of_ne (StableHlo.devRef_ne_of_ne h) _ _
theorem B7_ne (c : Dev nD) (b : Ref sig .tc) (h : b ≠ main_v48) : vr (B7 m) c b = vr (B6 m) c b :=
  Function.update_of_ne (StableHlo.devRef_ne_of_ne h) _ _
theorem B2_out (c : Dev nD) : vr (B2 m) c main_v12 = o2 m c := Function.update_self ..
theorem B4_out (c : Dev nD) : vr (B4 m) c main_v34 = o4 m c := Function.update_self ..
theorem B6_out (c : Dev nD) : vr (B6 m) c main_v47 = o6 m c := Function.update_self ..
theorem B7_out (c : Dev nD) : vr (B7 m) c main_v48 = o7 m c := Function.update_self ..

theorem keep0 (c : Dev nD) (r : Ref sig .tc) (h : r ∉ hostOps0_W) : vr (B1 m) c r = m ((c : Thread nD τ).loc r) :=
  V1_of m c r h
theorem keep1 (c : Dev nD) (r : Ref sig .tc) (h : r ∉ hostOps1_W) : vr (B3 m) c r = vr (B2 m) c r :=
  StableHlo.after_of_writes_sub hostOps1 _ hostOps1_writes h
theorem keep2 (c : Dev nD) (r : Ref sig .tc) (h : r ∉ hostOps2_W) : vr (B5 m) c r = vr (B4 m) c r :=
  StableHlo.after_of_writes_sub hostOps2 _ hostOps2_writes h

end Cert.Kernel.Hand

end
-- ==== Proof.K.R0Body.lean ====
import proofs.«425038_j72541997629469_1_alg».proof.Proof.K.R0Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0 (c : Dev nD) (t : Fin cfg0.N) (d) : (dat0 V c).before 0 t d = iblk0 V c 0 t := by
  have hkeep : ∀ t', (cfg0.win 0).cut (cfg0.grid.coords t') ((dat0 V c).after 0 t') = (dat0 V c).blockOf 0 t' := by
    intro t'
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

theorem whole0_1 (p : Vec F S2000x128 .f32) (y : S2000x128.Idx) :
    ∃ pc ∈ ([⟨rB0, p⟩] : List (View.Piece (Elt F) S2000x128 .f32)), y ∈ pc.1.set :=
  View.cover_of_tiled [⟨rB0, p⟩] S2000x128.size (by rfl) y

set_option maxHeartbeats 1000000 in

theorem run_kernel0 (c : Dev nD) (E : Set ℕ) (i : grid0.Coords)
    (a0 : Memref sig .tc .vmem S2000x128 .f32) (ha0 : a0.IsWhole) (a1 : Memref sig .tc .vmem S2000x128 .f32) (ha1 : a1.IsWhole)
    (x : Vec F S2000x128 .f32) (K : PUnit → sProp 𝕄) :
    iprop(owns (c : Thread nD τ) a0 fullShare x ∗ (∃ d, owns (c : Thread nD τ) a1 fullShare d)
        ∗ (iprop(owns (c : Thread nD τ) a0 fullShare x ∗ owns (c : Thread nD τ) a1 fullShare (out0_1 x)) -∗ K ⟨⟩))
      ⊢ wp frame (wpE (defs₀ (F := F)) Variants.none c none) E (cc0__preprocess_kernel i a0 ha0 a1 ha1) K := by
  simp only [cc0__preprocess_kernel_eq_skeleton]; unfold cc0__preprocess_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (whole0_1 _)

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem run_body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (run_kernel0 c Set.univ _ _ _ _ _ (iblk0 V c 0 t) _)
  iframe H0
  isplitl [H1]; · iexists _; iexact H1
  iintro ⟨H0, H1⟩
  iframe

theorem body_obligation0 (c : Dev nD) : BodyObligation (dat0 (F := F) V c) (defs₀ (F := F)) Variants.none () Set.univ := fun t => by
  rw [bigSep_W0, bigSep_W0]
  exact run_body0 V c t

end Cert.Kernel.Hand

end
-- ==== Proof.K.R1Body.lean ====
import proofs.«425038_j72541997629469_1_alg».proof.Proof.K.R1Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem whole1_6 (p : Vec F S2000x128 .f32) (y : S2000x128.Idx) :
    ∃ pc ∈ ([⟨rB1, p⟩] : List (View.Piece (Elt F) S2000x128 .f32)), y ∈ pc.1.set :=
  View.cover_of_tiled [⟨rB1, p⟩] S2000x128.size (by rfl) y

set_option maxHeartbeats 1000000 in

theorem run_kernel1 (c : Dev nD) (E : Set ℕ) (i : grid1.Coords)
    (a0 : Memref sig .tc .vmem S2000x128 .f32) (ha0 : a0.IsWhole)
    (a1 : Memref sig .tc .vmem S2000x128 .f32) (ha1 : a1.IsWhole)
    (a2 : Memref sig .tc .vmem S128x128 .bf16) (ha2 : a2.IsWhole)
    (a3 : Memref sig .tc .vmem S128x128 .bf16) (ha3 : a3.IsWhole)
    (a4 : Memref sig .tc .vmem S128x256 .bf16) (ha4 : a4.IsWhole)
    (a5 : Memref sig .tc .vmem S128 .f32) (ha5 : a5.IsWhole)
    (a6 : Memref sig .tc .vmem S2000x128 .f32) (ha6 : a6.IsWhole)
    (x0 : Vec F S2000x128 .f32) (x1 : Vec F S2000x128 .f32) (x2 : Vec F S128x128 .bf16) (x3 : Vec F S128x128 .bf16) (x4 : Vec F S128x256 .bf16) (x5 : Vec F S128 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (out1_6 x0 x1 x2 x3 x4 x5)) -∗ K ⟨⟩))
      ⊢ wp frame (wpE (defs₀ (F := F)) Variants.none c none) E
          (cc1__sage_fc_kernel i a0 ha0 a1 ha1 a2 ha2 a3 ha3 a4 ha4 a5 ha5 a6 ha6) K := by
  simp only [cc1__sage_fc_kernel_eq_skeleton]; unfold cc1__sage_fc_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (whole1_6 _)

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem run_body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact run_body1 V c t

end Cert.Kernel.Hand

end
-- ==== Proof.K.R2Body.lean ====
import proofs.«425038_j72541997629469_1_alg».proof.Proof.K.R2Defs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

theorem whole2_6 (p : Vec F S2000x128 .f32) (y : S2000x128.Idx) :
    ∃ pc ∈ ([⟨rB2, p⟩] : List (View.Piece (Elt F) S2000x128 .f32)), y ∈ pc.1.set :=
  View.cover_of_tiled [⟨rB2, p⟩] S2000x128.size (by rfl) y

set_option maxHeartbeats 1000000 in

theorem run_kernel2 (c : Dev nD) (E : Set ℕ) (i : grid2.Coords)
    (a0 : Memref sig .tc .vmem S2000x128 .f32) (ha0 : a0.IsWhole)
    (a1 : Memref sig .tc .vmem S2000x128 .f32) (ha1 : a1.IsWhole)
    (a2 : Memref sig .tc .vmem S128x128 .bf16) (ha2 : a2.IsWhole)
    (a3 : Memref sig .tc .vmem S128x128 .bf16) (ha3 : a3.IsWhole)
    (a4 : Memref sig .tc .vmem S128x256 .bf16) (ha4 : a4.IsWhole)
    (a5 : Memref sig .tc .vmem S128 .f32) (ha5 : a5.IsWhole)
    (a6 : Memref sig .tc .vmem S2000x128 .f32) (ha6 : a6.IsWhole)
    (x0 : Vec F S2000x128 .f32) (x1 : Vec F S2000x128 .f32) (x2 : Vec F S128x128 .bf16) (x3 : Vec F S128x128 .bf16) (x4 : Vec F S128x256 .bf16) (x5 : Vec F S128 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (out2_6 x0 x1 x2 x3 x4 x5)) -∗ K ⟨⟩))
      ⊢ wp frame (wpE (defs₀ (F := F)) Variants.none c none) E
          (cc2__sage_fc_kernel i a0 ha0 a1 ha1 a2 ha2 a3 ha3 a4 ha4 a5 ha5 a6 ha6) K := by
  simp only [cc2__sage_fc_kernel_eq_skeleton]; unfold cc2__sage_fc_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (whole2_6 _)

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem run_body2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact run_body2 V c t

end Cert.Kernel.Hand

end
-- ==== Proof.K.R3Body.lean ====
import proofs.«425038_j72541997629469_1_alg».proof.Proof.K.R3Defs
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop :=
  (Scalar.cmpi .ne (Scalar.extui (Scalar.cmpi .eq (BitVec.ofNat 32 (i 0).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1

theorem hcond3_1 : ∀ t : Fin cfg3.N, cond3_1 (grid3.coords t) ↔ t.val % 25 = 24 :=
  (by decide +kernel : ∀ t : Fin grid3.N, cond3_1 (grid3.coords t) ↔ t.val % 25 = 24)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

theorem idleAt3_4 : ∀ t : Fin cfg3.N, ¬cond3_1 (grid3.coords t) → cfg3.idle 4 (grid3.coords t) = true := by decide +kernel

theorem noFlush3_4 : ∀ t : Fin cfg3.N, ¬cond3_1 (grid3.coords t) → (cfg3.win 4).flush t = false := by decide +kernel

theorem liveAt3_4 : ∀ t : Fin cfg3.N, cond3_1 (grid3.coords t) → cfg3.idle 4 (grid3.coords t) = false := by decide +kernel

abbrev ms3_0 (t : Fin cfg3.N) : Memref sig .tc .vmem S2000x128 .f32 := win3_0.stage (cfg3.slots t 0)
abbrev ms3_1 (t : Fin cfg3.N) : Memref sig .tc .vmem S2000x1 .i32 := win3_1.stage (cfg3.slots t 1)
abbrev ms3_2 (t : Fin cfg3.N) : Memref sig .tc .vmem S128x128 .bf16 := win3_2.stage (cfg3.slots t 2)
abbrev ms3_3 (t : Fin cfg3.N) : Memref sig .tc .vmem S128 .f32 := win3_3.stage (cfg3.slots t 3)
abbrev ms3_4 (t : Fin cfg3.N) : Memref sig .tc .vmem S128x128 .f32 := win3_4.stage (cfg3.slots t 4)

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

theorem zeroOff3 : (![0, 0] : Fin 2 → Nat) = fun _ => 0 := funext fun a => by fin_cases a <;> rfl

theorem read_writes_whole3 {κ : Kind} {sp : Space} {e : EltTy} (v : View sig κ sp S128x128 e) (f : v.ty.Contents (Elt F))
    (w : S128x128.Idx → Elt F e) (L : List (View.Piece (Elt F) S128x128 e)) :
    v.read (Elt F) (v.writes (Elt F) f ((⟨Rect.unit (s := S128x128) ![0, 0] S128x128.size inb_S128x128_S128x128_0_0, w⟩ : View.Piece (Elt F) S128x128 e) :: L)) = w :=
  (View.read_writes_eq_canon v f _ (fun y => ⟨(⟨Rect.unit (s := S128x128) ![0, 0] S128x128.size inb_S128x128_S128x128_0_0, w⟩ : View.Piece (Elt F) S128x128 e),
      List.mem_cons_self, View.mem_set_unit_zero (S := S128x128) zeroOff3 inb_S128x128_S128x128_0_0 y⟩)).trans
    (View.canon_cons_unit_zero (S := S128x128) zeroOff3 inb_S128x128_S128x128_0_0 w L)

section Kernel3

variable (c : Dev nD) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x128 .bf16) (harg3 : arg3.IsWhole) (arg4 : Memref sig .tc .vmem S128 .f32) (harg4 : arg4.IsWhole)
    (arg5 : Memref sig .tc .vmem S128x128 .f32) (harg5 : arg5.IsWhole) (arg6 : Memref sig .tc .vmem S128x128 .f32) (harg6 : arg6.IsWhole)

set_option maxHeartbeats 1000000 in

theorem run_kernel3_A
    (hc0 : cond3_0 i) (hc1 : ¬cond3_1 i)
    (x0 : Vec F S2000x128 .f32) (x1 : Vec F S2000x1 .i32) (x2 : Vec F S128x128 .bf16) (x3 : Vec F S128 .f32) (xi4 : Vec F S128x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (accStep x0 x1 (accZero (F := F)))) -∗ K ⟨⟩))
      ⊢ wp frame (wpE (defs₀ (F := F)) Variants.none c none) E (cc3__pool_fc3_kernel i arg1 harg1 arg2 harg2 arg3 harg3 arg4 harg4 arg5 harg5 arg6 harg6) K := by
  simp only [cc3__pool_fc3_kernel_eq_skeleton]; unfold cc3__pool_fc3_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS0
  ipureintro
  sl_unfold_words
  refine (read_writes_whole3 _ _ _ _).trans ?_
  unfold accStep accZero
  rw [View.canon_unit_zero (S := S128x128) zeroOff3]
  simp only [View.readAt_eq_ld, harg1.read_unread, harg2.read_unread, View.readCov_unit_zero (S := S128x128) _ zeroOff3,
    View.canon_unit_zero (S := S128x128) zeroOff3, View.ld_unit_zero (S := S128x128) zeroOff3, rB3, rL3, rW3, rV3]

set_option maxHeartbeats 1000000 in

theorem run_kernel3_B
    (hc0 : ¬cond3_0 i) (hc1 : ¬cond3_1 i)
    (x0 : Vec F S2000x128 .f32) (x1 : Vec F S2000x1 .i32) (x2 : Vec F S128x128 .bf16) (x3 : Vec F S128 .f32) (xi4 : Vec F S128x128 .f32) (xs : Vec F S128x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (accStep x0 x1 xs)) -∗ K ⟨⟩))
      ⊢ wp frame (wpE (defs₀ (F := F)) Variants.none c none) E (cc3__pool_fc3_kernel i arg1 harg1 arg2 harg2 arg3 harg3 arg4 harg4 arg5 harg5 arg6 harg6) K := by
  simp only [cc3__pool_fc3_kernel_eq_skeleton]; unfold cc3__pool_fc3_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS0
  ipureintro
  sl_unfold_words
  refine (read_writes_whole3 _ _ _ _).trans ?_
  unfold accStep
  rw [View.canon_unit_zero (S := S128x128) zeroOff3]
  simp only [View.readAt_eq_ld, harg1.read_unread, harg2.read_unread, harg6.read_unread, View.readCov_unit_zero (S := S128x128) _ zeroOff3,
    View.canon_unit_zero (S := S128x128) zeroOff3, View.ld_unit_zero (S := S128x128) zeroOff3, rB3, rL3, rW3, rV3]

set_option maxHeartbeats 1000000 in

theorem run_kernel3_C
    (hc0 : ¬cond3_0 i) (hc1 : cond3_1 i)
    (x0 : Vec F S2000x128 .f32) (x1 : Vec F S2000x1 .i32) (x2 : Vec F S128x128 .bf16) (x3 : Vec F S128 .f32) (xs : Vec F S128x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (out3_4 x2 x3 (accStep x0 x1 xs))
            ∗ owns (c : Thread nD τ) arg6 fullShare (accStep x0 x1 xs)) -∗ K ⟨⟩))
      ⊢ wp frame (wpE (defs₀ (F := F)) Variants.none c none) E (cc3__pool_fc3_kernel i arg1 harg1 arg2 harg2 arg3 harg3 arg4 harg4 arg5 harg5 arg6 harg6) K := by
  simp only [cc3__pool_fc3_kernel_eq_skeleton]; unfold cc3__pool_fc3_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg1.eq_unread hf0; obtain rfl := harg2.eq_unread hf1; obtain rfl := harg3.eq_unread hf2
  obtain rfl := harg4.eq_unread hf3; obtain rfl := harg6.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (read_writes_whole3 _ _ _ _).trans ?_
    unfold out3_4 accStep
    rw [View.canon_unit_zero (S := S128x128) zeroOff3]
    simp only [View.readAt_eq_ld, harg1.read_unread, harg2.read_unread, harg3.read_unread, harg4.read_unread, harg6.read_unread, View.readCov_unit_zero (S := S128x128) _ zeroOff3,
      View.canon_unit_zero (S := S128x128) zeroOff3, View.ld_unit_zero (S := S128x128) zeroOff3, rB3, rL3, rW3, rV3]
  iexists _; isplitr
  swap; · iexact HS0
  ipureintro
  sl_unfold_words
  refine (read_writes_whole3 _ _ _ _).trans ?_
  unfold accStep
  rw [View.canon_unit_zero (S := S128x128) zeroOff3]
  simp only [View.readAt_eq_ld, harg1.read_unread, harg2.read_unread, harg6.read_unread, View.readCov_unit_zero (S := S128x128) _ zeroOff3,
    View.canon_unit_zero (S := S128x128) zeroOff3, View.ld_unit_zero (S := S128x128) zeroOff3, rB3, rL3, rW3, rV3]

end Kernel3

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (accAt V c n hn) ∗ Pipeline.scopedRestBut (Ix := Unit) (Name := ℕ) (U := UR sig nD τ) (Lvl := ℕ) (Val := Elt F) spec3 c [cc3_scratch0] ∗ (∃ r, prngReg c r)) := rfl

theorem PhiS3_pos (c : Dev nD) (n : ℕ) (h : n ≤ cfg3.N) (hz : n ≠ 0) :
    PhiS3 V c n h = iprop(owns (c : Thread nD τ) scM3 fullShare (accAt V c (n - 1) (by omega)) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

theorem accAt_first (c : Dev nD) (t : Fin cfg3.N) (hz : t.val = 0) :
    accAt V c t.val t.isLt = accStep (iblk3 V c 0 t) (iblk3 V c 1 t) (accZero (F := F)) := by
  obtain ⟨n, hn⟩ := t
  cases n with
  | zero => rfl
  | succ n => exact absurd hz (Nat.succ_ne_zero n)

theorem accAt_later (c : Dev nD) (t : Fin cfg3.N) (hz : t.val ≠ 0) :
    accAt V c t.val t.isLt = accStep (iblk3 V c 0 t) (iblk3 V c 1 t)
      (accAt V c (t.val - 1) (Nat.lt_of_le_of_lt (Nat.sub_le _ _) t.isLt)) := by
  obtain ⟨n, hn⟩ := t
  cases n with
  | zero => exact absurd rfl hz
  | succ n => rfl

def pre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def post3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in

theorem run_body3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  have hN : t.val < 25 := lt_of_lt_of_eq t.isLt (show cfg3.N = 25 from N_3)
  by_cases h0 : t.val % 25 = 0
  · have h1 : ¬t.val % 25 = 24 := by omega
    have hz : t.val = 0 := by omega
    rw [Dat.leavesExact_idle (dat3 V c) 4 t (idleAt3_4 t (fun h => h1 ((hcond3_1 t).mp h))) (noFlush3_4 t (fun h => h1 ((hcond3_1 t).mp h)))]
    rw [accAt_first V c t hz, PhiS3_castSucc V c t, PhiS3_zero V c _ _ hz, PhiA3_eq]
    iintro ⟨⟨⟨HS0, Hr⟩, Hg⟩, Ho, ⟨%d0, H0⟩, ⟨%d1, H1⟩, ⟨%d2, H2⟩, ⟨%d3, H3⟩, ⟨%d4, H4⟩⟩
    iapply (run_kernel3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t) _ Set.univ _)
    iframe H0 H1 H2 H3 H4 HS0
    iintro ⟨H0, H1, H2, H3, H4, HS0⟩
    iframe HS0 Hr Hg Ho H0 H1 H2 H3
    iexists _; iexact H4
  · have hz : t.val ≠ 0 := fun e => h0 (by rw [e])
    by_cases h1 : t.val % 25 = 24
    · rw [show (dat3 V c).leavesExact 4 t = owns (c : Thread nD τ) (ms3_4 t) fullShare ((dat3 V c).after 4 t) from by
        unfold Dat.leavesExact; rw [liveAt3_4 t ((hcond3_1 t).mpr h1)], after3_4]
      rw [accAt_later V c t hz, PhiS3_castSucc V c t, PhiS3_pos V c _ _ hz]
      iintro ⟨⟨HS0, Hr, Hg⟩, Ho, ⟨%d0, H0⟩, ⟨%d1, H1⟩, ⟨%d2, H2⟩, ⟨%d3, H3⟩, ⟨%d4, H4⟩⟩
      iapply (run_kernel3_C c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _ Set.univ _)
      iframe H0 H1 H2 H3 HS0
      isplitl [H4]; · iexists _; iexact H4
      iintro ⟨H0, H1, H2, H3, H4, HS0⟩
      iframe
    · rw [Dat.leavesExact_idle (dat3 V c) 4 t (idleAt3_4 t (fun h => h1 ((hcond3_1 t).mp h))) (noFlush3_4 t (fun h => h1 ((hcond3_1 t).mp h)))]
      rw [accAt_later V c t hz, PhiS3_castSucc V c t, PhiS3_pos V c _ _ hz]
      iintro ⟨⟨HS0, Hr, Hg⟩, Ho, ⟨%d0, H0⟩, ⟨%d1, H1⟩, ⟨%d2, H2⟩, ⟨%d3, H3⟩, ⟨%d4, H4⟩⟩
      iapply (run_kernel3_B c (grid3.coords t) _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ Set.univ _)
      iframe H0 H1 H2 H3 H4 HS0
      iintro ⟨H0, H1, H2, H3, H4, HS0⟩
      iframe HS0 Hr Hg Ho H0 H1 H2 H3
      iexists _; iexact H4

theorem body_obligation3 (c : Dev nD) : BodyObligation (dat3 (F := F) V c) (defs₀ (F := F)) Variants.none () Set.univ := fun t => by
  rw [bigSep_W3, bigSep_W3]
  exact run_body3 V c t

theorem hin3 (c : Dev nD) : Pipeline.ΦA spec3 c ⊢ (dat3 (F := F) V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS0, Hr, Hg⟩
  iframe Hr Hg
  iexists _; iexact HS0

theorem hout3 (c : Dev nD) : (dat3 (F := F) V c).Φ (Fin.last cfg3.N) ⊢ Pipeline.ΦA spec3 c :=
  Phi_out3 V c _ (by rw [Fin.val_last]; have : cfg3.N = 25 := N_3; omega)

end Cert.Kernel.Hand

end
-- ==== Proof.K.Segs.lean ====
import proofs.«425038_j72541997629469_1_alg».proof.Proof.K.Bounds
import proofs.«425038_j72541997629469_1_alg».proof.Proof.K.R0Body
import proofs.«425038_j72541997629469_1_alg».proof.Proof.K.R1Body
import proofs.«425038_j72541997629469_1_alg».proof.Proof.K.R2Body
import proofs.«425038_j72541997629469_1_alg».proof.Proof.K.R3Body
import proofs.«425038_j72541997629469_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def pdats (Wa Wb Wc Wd : Dev nD → Valuation τ sig (Elt F)) : (p : Fin 4) → (c : Dev nD) → Dat τ (Elt F) Unit ℕ (UR sig nD τ) ℕ (Pipeline.pin (pcfgs (F := F)) adm p) c
  | ⟨0, _⟩ => fun c => dat0 (vr Wa) c
  | ⟨1, _⟩ => fun c => dat1 (vr Wb) c
  | ⟨2, _⟩ => fun c => dat2 (vr Wc) c
  | ⟨3, _⟩ => fun c => dat3 (vr Wd) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- A region changes the arrays it is given and leaves every other array as it was: said once, for any of the four regions.
set_option backward.isDefEq.respectTransparency.types false in
@[reducible] def regAt (Wa Wb Wc Wd : Dev nD → Valuation τ sig (Elt F)) (p : Fin 4) (W Wp : Dev nD → Valuation τ sig (Elt F))
    (lf : Pipeline.LaunchFacts (nD := nD) (τ := τ) cfgs p)
    (hbody : ∀ c, BodyObligation (pdats Wa Wb Wc Wd p c) (defs₀ (F := F)) 𝒱₀ () Set.univ)
    (hA : ∀ c w, (pdats Wa Wb Wc Wd p c).A w = vr W c (Pipeline.arrRef (cfgs p).spec w))
    (hq : ∀ c w, (pdats Wa Wb Wc Wd p c).q w = fullShare)
    (howed : ∀ c t, (pdats Wa Wb Wc Wd p c).owed t = 0)
    (hrec : ∀ c x, x ∈ (pdats Wa Wb Wc Wd p c).recorded 0)
    (hin : ∀ c, Pipeline.ΦA (cfgs p).spec c ⊢ (pdats Wa Wb Wc Wd p c).Φ 0)
    (hout : ∀ c, (pdats Wa Wb Wc Wd p c).Φ (Fin.last _) ⊢ Pipeline.ΦA (cfgs p).spec c)
    (hF : ∀ c w, (pdats Wa Wb Wc Wd p c).arrAt w (cfgs p).N = vr Wp c (Pipeline.arrRef (cfgs p).spec w))
    (hrest : ∀ c b, b ∉ Finset.univ.image (Pipeline.arrRef (cfgs p).spec) → vr Wp c b = vr W c b) :
    Pipeline.RegionSeg (pcfgs (F := F)) adm (pdats Wa Wb Wc Wd) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) (cfgs p).spec c (vr W c)
  hentry c := by
    rw [Pipeline.ownSems0_none]
    have hsplit := Pipeline.arrays_of_unscopedBufs (p := p) (pcfgs (F := F)) adm (pdats Wa Wb Wc Wd) lf.win lf.arr_whole c
      ((pdats Wa Wb Wc Wd p c).share_full (hq c)) (vr W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; simp only [howed c]
      icases HO with ⟨%W', HO⟩; iexists W'; isplitr; · ipureintro; exact fun x _ => Or.inl (hrec c x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats Wa Wb Wc Wd) ((pdats Wa Wb Wc Wd p c).share_full (hq c))
      (vr W c) (vr Wp c) ((pdats Wa Wb Wc Wd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; simp only [howed c]
    icases HO with ⟨%W', -, HO⟩; iexists W'; iexact HO

abbrev reg0 (Wa Wb Wc Wd Wp : Dev nD → Valuation τ sig (Elt F))
    (hF : ∀ c w, (dat0 (vr Wa) c).arrAt w cfg0.N = vr Wp c (Pipeline.arrRef spec0 w))
    (hrest : ∀ c b, b ∉ Finset.univ.image (Pipeline.arrRef spec0) → vr Wp c b = vr Wa c b) :=
  regAt Wa Wb Wc Wd 0 Wa Wp launch0 (body_obligation0 (vr Wa)) (fun _ _ => rfl) (fun _ _ => rfl) (fun _ _ => rfl) (fun _ _ => trivial)
    (fun _ => .rfl) (fun _ => .rfl) hF hrest

abbrev reg1 (Wa Wb Wc Wd Wp : Dev nD → Valuation τ sig (Elt F))
    (hF : ∀ c w, (dat1 (vr Wb) c).arrAt w cfg1.N = vr Wp c (Pipeline.arrRef spec1 w))
    (hrest : ∀ c b, b ∉ Finset.univ.image (Pipeline.arrRef spec1) → vr Wp c b = vr Wb c b) :=
  regAt Wa Wb Wc Wd 1 Wb Wp launch1 (body_obligation1 (vr Wb)) (fun _ _ => rfl) (fun _ _ => rfl) (fun _ _ => rfl) (fun _ _ => trivial)
    (fun _ => .rfl) (fun _ => .rfl) hF hrest

abbrev reg2 (Wa Wb Wc Wd Wp : Dev nD → Valuation τ sig (Elt F))
    (hF : ∀ c w, (dat2 (vr Wc) c).arrAt w cfg2.N = vr Wp c (Pipeline.arrRef spec2 w))
    (hrest : ∀ c b, b ∉ Finset.univ.image (Pipeline.arrRef spec2) → vr Wp c b = vr Wc c b) :=
  regAt Wa Wb Wc Wd 2 Wc Wp launch2 (body_obligation2 (vr Wc)) (fun _ _ => rfl) (fun _ _ => rfl) (fun _ _ => rfl) (fun _ _ => trivial)
    (fun _ => .rfl) (fun _ => .rfl) hF hrest

abbrev reg3 (Wa Wb Wc Wd Wp : Dev nD → Valuation τ sig (Elt F))
    (hF : ∀ c w, (dat3 (vr Wd) c).arrAt w cfg3.N = vr Wp c (Pipeline.arrRef spec3 w))
    (hrest : ∀ c b, b ∉ Finset.univ.image (Pipeline.arrRef spec3) → vr Wp c b = vr Wd c b) :=
  regAt Wa Wb Wc Wd 3 Wd Wp launch3 (body_obligation3 (vr Wd)) (fun _ _ => rfl) (fun _ _ => rfl) (fun _ _ => rfl) (fun _ _ => trivial)
    (hin3 (vr Wd)) (hout3 (vr Wd)) hF hrest

end Cert.Kernel.Hand

end
-- ==== Proof.K.RunCond.lean ====
import proofs.«425038_j72541997629469_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, (hpost2 c).trans (hpre3 c), (hpost3 c).trans (sep_mono .rfl (hE4 c))⟩)
    (hinit := ?_) (QY := fun c s => ∀ b ∈ Pipeline.ucRefs τ sig, s.mem ((c : Thread nD τ).1, b) = V7 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (V7 m outs c) s')
    isplitl [Hh] <;> iassumption

end Cert.Kernel.Hand

end
-- ==== Proof.K.Run.lean ====
import proofs.«425038_j72541997629469_1_alg».proof.Proof.K.Bounds
import proofs.«425038_j72541997629469_1_alg».proof.Proof.K.Segs
import proofs.«425038_j72541997629469_1_alg».proof.Proof.K.RunCond
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF0 (c : Dev nD) (w : Fin cfg0.W) : (dat0 (vr (B1 m)) c).arrAt w cfg0.N = vr (B2 m) c (Pipeline.arrRef spec0 w) := by
  fin_cases w
  · exact ((dat0 (vr (B1 m)) c).arrAt_in 0 rfl _).trans (B2_ne m c main_arg0 (by decide)).symm
  · exact (o2_def m c).symm.trans (B2_out m c).symm
theorem hrest0 (c : Dev nD) (b : Ref sig .tc) (hb : b ∉ Finset.univ.image (Pipeline.arrRef spec0)) : vr (B2 m) c b = vr (B1 m) c b :=
  B2_ne m c b fun h => hb (h ▸ Finset.mem_image.mpr ⟨1, Finset.mem_univ _, rfl⟩)

set_option maxHeartbeats 1000000 in
theorem hF1 (c : Dev nD) (w : Fin cfg1.W) : (dat1 (vr (B3 m)) c).arrAt w cfg1.N = vr (B4 m) c (Pipeline.arrRef spec1 w) := by
  fin_cases w
  · exact ((dat1 (vr (B3 m)) c).arrAt_in 0 rfl _).trans (B4_ne m c main_v33 (by decide)).symm
  · exact ((dat1 (vr (B3 m)) c).arrAt_in 1 rfl _).trans (B4_ne m c main_v12 (by decide)).symm
  · exact ((dat1 (vr (B3 m)) c).arrAt_in 2 rfl _).trans (B4_ne m c main_v5 (by decide)).symm
  · exact ((dat1 (vr (B3 m)) c).arrAt_in 3 rfl _).trans (B4_ne m c main_v6 (by decide)).symm
  · exact ((dat1 (vr (B3 m)) c).arrAt_in 4 rfl _).trans (B4_ne m c main_v9 (by decide)).symm
  · exact ((dat1 (vr (B3 m)) c).arrAt_in 5 rfl _).trans (B4_ne m c main_arg8 (by decide)).symm
  · exact (o4_def m c).symm.trans (B4_out m c).symm
theorem hrest1 (c : Dev nD) (b : Ref sig .tc) (hb : b ∉ Finset.univ.image (Pipeline.arrRef spec1)) : vr (B4 m) c b = vr (B3 m) c b :=
  B4_ne m c b fun h => hb (h ▸ Finset.mem_image.mpr ⟨6, Finset.mem_univ _, rfl⟩)

set_option maxHeartbeats 1000000 in
theorem hF2 (c : Dev nD) (w : Fin cfg2.W) : (dat2 (vr (B5 m)) c).arrAt w cfg2.N = vr (B6 m) c (Pipeline.arrRef spec2 w) := by
  fin_cases w
  · exact ((dat2 (vr (B5 m)) c).arrAt_in 0 rfl _).trans (B6_ne m c main_v46 (by decide)).symm
  · exact ((dat2 (vr (B5 m)) c).arrAt_in 1 rfl _).trans (B6_ne m c main_v34 (by decide)).symm
  · exact ((dat2 (vr (B5 m)) c).arrAt_in 2 rfl _).trans (B6_ne m c main_v7 (by decide)).symm
  · exact ((dat2 (vr (B5 m)) c).arrAt_in 3 rfl _).trans (B6_ne m c main_v8 (by decide)).symm
  · exact ((dat2 (vr (B5 m)) c).arrAt_in 4 rfl _).trans (B6_ne m c main_v10 (by decide)).symm
  · exact ((dat2 (vr (B5 m)) c).arrAt_in 5 rfl _).trans (B6_ne m c main_arg10 (by decide)).symm
  · exact (o6_def m c).symm.trans (B6_out m c).symm
theorem hrest2 (c : Dev nD) (b : Ref sig .tc) (hb : b ∉ Finset.univ.image (Pipeline.arrRef spec2)) : vr (B6 m) c b = vr (B5 m) c b :=
  B6_ne m c b fun h => hb (h ▸ Finset.mem_image.mpr ⟨6, Finset.mem_univ _, rfl⟩)

set_option maxHeartbeats 1000000 in
theorem hF3 (c : Dev nD) (w : Fin cfg3.W) : (dat3 (vr (B6 m)) c).arrAt w cfg3.N = vr (B7 m) c (Pipeline.arrRef spec3 w) := by
  fin_cases w
  · exact ((dat3 (vr (B6 m)) c).arrAt_in 0 rfl _).trans (B7_ne m c main_v47 (by decide)).symm
  · exact ((dat3 (vr (B6 m)) c).arrAt_in 1 rfl _).trans (B7_ne m c main_v4 (by decide)).symm
  · exact ((dat3 (vr (B6 m)) c).arrAt_in 2 rfl _).trans (B7_ne m c main_v11 (by decide)).symm
  · exact ((dat3 (vr (B6 m)) c).arrAt_in 3 rfl _).trans (B7_ne m c main_arg12 (by decide)).symm
  · exact (o7_def m c).symm.trans (B7_out m c).symm
theorem hrest3 (c : Dev nD) (b : Ref sig .tc) (hb : b ∉ Finset.univ.image (Pipeline.arrRef spec3)) : vr (B7 m) c b = vr (B6 m) c b :=
  B7_ne m c b fun h => hb (h ▸ Finset.mem_image.mpr ⟨4, Finset.mem_univ _, rfl⟩)

abbrev pd : (p : Fin 4) → (c : Dev nD) → Dat τ (Elt F) Unit ℕ (UR sig nD τ) ℕ (Pipeline.pin (pcfgs (F := F)) adm p) c :=
  pdats (B1 m) (B3 m) (B5 m) (B6 m)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = B7 m c b) := by
  have h := run_cond (F := F) m (emb₁ (Ix := Unit) (Val := Elt F) (Name := ℕ) (Lvl := ℕ)) () 𝒱₀ L lv (fun _ _ => rfl) ρ (outsB m) (pd m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 (B1 m) (B3 m) (B5 m) (B6 m) (B2 m) (hF0 m) (hrest0 m))
    (hpre0 := fun c => .rfl)
    (hpost0 := fun c => by rw [V2_eq])
    (R1 := reg1 (B1 m) (B3 m) (B5 m) (B6 m) (B4 m) (hF1 m) (hrest1 m))
    (hpre1 := fun c => by rw [V3_eq])
    (hpost1 := fun c => by rw [V4_eq])
    (R2 := reg2 (B1 m) (B3 m) (B5 m) (B6 m) (B6 m) (hF2 m) (hrest2 m))
    (hpre2 := fun c => by rw [V5_eq])
    (hpost2 := fun c => by rw [V6_eq])
    (R3 := reg3 (B1 m) (B3 m) (B5 m) (B6 m) (B7 m) (hF3 m) (hrest3 m))
    (hpre3 := fun c => by rw [V6_eq])
    (hpost3 := fun c => by rw [V7_eq])
  exact (θ_run defs _ _).mono (fun r hr c b hb => (hr c b hb).trans (by rw [V7_eq])) h

theorem run_args_result (ρ : Dev nD → PrngReg) :
    θ_run defs (onTc (τ := τ) (main (F := F))) ⟨m, fun _ => 0, ρ⟩ (fun r => ∀ c : Dev nD,
      r.2.mem ((c.tc : Thread nD τ).loc main_v48) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r hr c => ?_) (run_all m ρ)
  have hv : ∀ (b : Ref sig .tc) (h : ¬ (Proc.devRef .tc b : DevRef τ sig).isScoped),
      r.2.mem ((c.tc : Thread nD τ).loc b) = V7 m (outsB m) c b := fun b h => (hr c _ (mem_uc b h)).trans (by rw [V7_eq])
  exact ⟨(hr c _ (mem_uc main_v48 (by decide))).trans (B7_out m c),
    (hv main_arg0 (by decide)).trans (V7_main_arg0 m (outsB m) c), (hv main_arg1 (by decide)).trans (V7_main_arg1 m (outsB m) c),
    (hv main_arg2 (by decide)).trans (V7_main_arg2 m (outsB m) c), (hv main_arg3 (by decide)).trans (V7_main_arg3 m (outsB m) c),
    (hv main_arg4 (by decide)).trans (V7_main_arg4 m (outsB m) c), (hv main_arg5 (by decide)).trans (V7_main_arg5 m (outsB m) c),
    (hv main_arg6 (by decide)).trans (V7_main_arg6 m (outsB m) c), (hv main_arg7 (by decide)).trans (V7_main_arg7 m (outsB m) c),
    (hv main_arg8 (by decide)).trans (V7_main_arg8 m (outsB m) c), (hv main_arg9 (by decide)).trans (V7_main_arg9 m (outsB m) c),
    (hv main_arg10 (by decide)).trans (V7_main_arg10 m (outsB m) c), (hv main_arg11 (by decide)).trans (V7_main_arg11 m (outsB m) c),
    (hv main_arg12 (by decide)).trans (V7_main_arg12 m (outsB m) c)⟩

end Cert.Kernel.Hand

end
-- ==== Proof.KI.R0Defs.lean ====
import proofs.«425038_j72541997629469_1_alg».proof.Proof.Gen.KernelIdeal.Launch
import proofs.«425038_j72541997629469_1_alg».proof.Proof.Gen.KernelIdeal.Skeleton
import proofs.«425038_j72541997629469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rB0 : Rect S2000x128 := Rect.unit (s := S2000x128) ![0, 0] S2000x128.size inb_S2000x128_S2000x128_0_0

def out0_1 (x0 : Vec F S2000x128 .f32) : Vec F S2000x128 .f32 :=
  View.canon [⟨rB0, k0_pay1 (View.ld x0 rB0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

end Cert.KernelIdeal.Hand

end
-- ==== Proof.KI.R1Defs.lean ====
import proofs.«425038_j72541997629469_1_alg».proof.Proof.Gen.KernelIdeal.Launch
import proofs.«425038_j72541997629469_1_alg».proof.Proof.Gen.KernelIdeal.Skeleton
import proofs.«425038_j72541997629469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rB1 : Rect S2000x128 := Rect.unit (s := S2000x128) ![0, 0] S2000x128.size inb_S2000x128_S2000x128_0_0
abbrev rW1 : Rect S128x128 := Rect.unit (s := S128x128) ![0, 0] S128x128.size inb_S128x128_S128x128_0_0
abbrev rW21 : Rect S128x256 := Rect.unit (s := S128x256) ![0, 0] S128x256.size inb_S128x256_S128x256_0_0
abbrev rV1 : Rect S128 := Rect.unit (s := S128) ![0] S128.size inb_S128_S128_0

def out1_6 (x0 x1 : Vec F S2000x128 .f32) (x2 x3 : Vec F S128x128 .bf16) (x4 : Vec F S128x256 .bf16) (x5 : Vec F S128 .f32) :
    Vec F S2000x128 .f32 :=
  View.canon [⟨rB1, k1_pay1
    (k1_pay2 (View.ld x0 rB1) (View.ld x1 rB1) (View.ld x2 rW1) (View.ld x3 rW1) (View.ld x4 rW21) (View.ld x5 rV1))
    (k1_pay3 (View.ld x0 rB1) (View.ld x1 rB1) (View.ld x2 rW1) (View.ld x3 rW1) (View.ld x4 rW21) (View.ld x5 rV1))
    (k1_pay4 (View.ld x0 rB1) (View.ld x1 rB1) (View.ld x2 rW1) (View.ld x3 rW1) (View.ld x4 rW21) (View.ld x5 rV1))⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

end Cert.KernelIdeal.Hand

end
-- ==== Proof.KI.R2Defs.lean ====
import proofs.«425038_j72541997629469_1_alg».proof.Proof.Gen.KernelIdeal.Launch
import proofs.«425038_j72541997629469_1_alg».proof.Proof.Gen.KernelIdeal.Skeleton
import proofs.«425038_j72541997629469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rB2 : Rect S2000x128 := Rect.unit (s := S2000x128) ![0, 0] S2000x128.size inb_S2000x128_S2000x128_0_0
abbrev rW2 : Rect S128x128 := Rect.unit (s := S128x128) ![0, 0] S128x128.size inb_S128x128_S128x128_0_0
abbrev rW22 : Rect S128x256 := Rect.unit (s := S128x256) ![0, 0] S128x256.size inb_S128x256_S128x256_0_0
abbrev rV2 : Rect S128 := Rect.unit (s := S128) ![0] S128.size inb_S128_S128_0

def out2_6 (x0 x1 : Vec F S2000x128 .f32) (x2 x3 : Vec F S128x128 .bf16) (x4 : Vec F S128x256 .bf16) (x5 : Vec F S128 .f32) :
    Vec F S2000x128 .f32 :=
  View.canon [⟨rB2, k2_pay1
    (k2_pay2 (View.ld x0 rB2) (View.ld x1 rB2) (View.ld x2 rW2) (View.ld x3 rW2) (View.ld x4 rW22) (View.ld x5 rV2))
    (k2_pay3 (View.ld x0 rB2) (View.ld x1 rB2) (View.ld x2 rW2) (View.ld x3 rW2) (View.ld x4 rW22) (View.ld x5 rV2))
    (k2_pay4 (View.ld x0 rB2) (View.ld x1 rB2) (View.ld x2 rW2) (View.ld x3 rW2) (View.ld x4 rW22) (View.ld x5 rV2))⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

end Cert.KernelIdeal.Hand

end
-- ==== Proof.KI.R3Defs.lean ====
import proofs.«425038_j72541997629469_1_alg».proof.Proof.Gen.KernelIdeal.Launch
import proofs.«425038_j72541997629469_1_alg».proof.Proof.Gen.KernelIdeal.Skeleton
import proofs.«425038_j72541997629469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rB3 : Rect S2000x128 := Rect.unit (s := S2000x128) ![0, 0] S2000x128.size inb_S2000x128_S2000x128_0_0
abbrev rL3 : Rect S2000x1 := Rect.unit (s := S2000x1) ![0, 0] S2000x1.size inb_S2000x1_S2000x1_0_0
abbrev rW3 : Rect S128x128 := Rect.unit (s := S128x128) ![0, 0] S128x128.size inb_S128x128_S128x128_0_0
abbrev rV3 : Rect S128 := Rect.unit (s := S128) ![0] S128.size inb_S128_S128_0

abbrev scM3 : Memref sig .tc .vmem S128x128 .f32 := Memref.whole cc3_scratch0

def accZero : Vec F S128x128 .f32 := View.canon [⟨rW3, k3_pay1 (F := F)⟩]

def accStep (h : Vec F S2000x128 .f32) (lab : Vec F S2000x1 .i32) (a : Vec F S128x128 .f32) : Vec F S128x128 .f32 :=
  View.canon [⟨rW3, k3_pay2 (View.ld h rB3) (View.ld lab rL3) (View.ld a rW3)⟩]

def accAt (c : Dev nD) : (n : ℕ) → n < cfg3.N → Vec F S128x128 .f32
  | 0, hn => accStep (iblk3 V c 0 ⟨0, hn⟩) (iblk3 V c 1 ⟨0, hn⟩) accZero
  | n + 1, hn => accStep (iblk3 V c 0 ⟨n + 1, hn⟩) (iblk3 V c 1 ⟨n + 1, hn⟩) (accAt c n (Nat.lt_of_succ_lt hn))

theorem accAt_zero (c : Dev nD) (hn : 0 < cfg3.N) :
    accAt V c 0 hn = accStep (iblk3 V c 0 ⟨0, hn⟩) (iblk3 V c 1 ⟨0, hn⟩) accZero := rfl
theorem accAt_succ (c : Dev nD) (n : ℕ) (hn : n + 1 < cfg3.N) :
    accAt V c (n + 1) hn = accStep (iblk3 V c 0 ⟨n + 1, hn⟩) (iblk3 V c 1 ⟨n + 1, hn⟩) (accAt V c n (Nat.lt_of_succ_lt hn)) := rfl

def out3_4 (w : Vec F S128x128 .bf16) (b : Vec F S128 .f32) (a : Vec F S128x128 .f32) : Vec F S128x128 .f32 :=
  View.canon [⟨rW3, k3_pay3 (View.ld w rW3) (View.ld b rV3) (View.ld a rW3)⟩]

def PhiS3 (c : Dev nD) : (n : ℕ) → n ≤ cfg3.N → sProp 𝕄
  | 0, _ => Pipeline.ΦA spec3 c
  | n + 1, hn => iprop(owns (c : Thread nD τ) scM3 fullShare (accAt V c n hn)
      ∗ Pipeline.scopedRestBut (Ix := Unit) (Name := ℕ) (U := UR sig nD τ) (Lvl := ℕ) (Val := Elt F) spec3 c [cc3_scratch0]
      ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 2 t) (iblk3 V c 3 t) (accAt V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t
    = out3_4 (iblk3 V c 2 t) (iblk3 V c 3 t) (accAt V c t.val t.isLt) := by dsimp only [dat3]

end Cert.KernelIdeal.Hand

end
-- ==== Proof.KI.Bounds.lean ====
import proofs.«425038_j72541997629469_1_alg».proof.Proof.KI.R0Defs
import proofs.«425038_j72541997629469_1_alg».proof.Proof.KI.R1Defs
import proofs.«425038_j72541997629469_1_alg».proof.Proof.KI.R2Defs
import proofs.«425038_j72541997629469_1_alg».proof.Proof.KI.R3Defs
import proofs.«425038_j72541997629469_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

abbrev vr (W : Dev nD → Valuation τ sig (Elt F)) : (c : Dev nD) → (b : Ref sig .tc) → Buf (Elt F) ((c : Thread nD τ).loc b) :=
  fun c b => W c b

variable (m : (ℓ : Loc nD τ sig) → Buf (Elt F) ℓ)

abbrev B1 (c : Dev nD) : Valuation τ sig (Elt F) := V1 m c

@[irreducible] def o2 (c : Dev nD) : Buf (Elt F) ((c : Thread nD τ).loc main_v12) := (dat0 (vr (B1 m)) c).arrAt 1 cfg0.N

abbrev B2 (c : Dev nD) : Valuation τ sig (Elt F) := Function.update (B1 m c) main_v12 (o2 m c)

abbrev B3 (c : Dev nD) : Valuation τ sig (Elt F) := StableHlo.after hostOps1 (B2 m c)

@[irreducible] def o4 (c : Dev nD) : Buf (Elt F) ((c : Thread nD τ).loc main_v34) := (dat1 (vr (B3 m)) c).arrAt 6 cfg1.N

abbrev B4 (c : Dev nD) : Valuation τ sig (Elt F) := Function.update (B3 m c) main_v34 (o4 m c)

abbrev B5 (c : Dev nD) : Valuation τ sig (Elt F) := StableHlo.after hostOps2 (B4 m c)

@[irreducible] def o6 (c : Dev nD) : Buf (Elt F) ((c : Thread nD τ).loc main_v47) := (dat2 (vr (B5 m)) c).arrAt 6 cfg2.N

abbrev B6 (c : Dev nD) : Valuation τ sig (Elt F) := Function.update (B5 m c) main_v47 (o6 m c)

@[irreducible] def o7 (c : Dev nD) : Buf (Elt F) ((c : Thread nD τ).loc main_v48) := (dat3 (vr (B6 m)) c).arrAt 4 cfg3.N

abbrev B7 (c : Dev nD) : Valuation τ sig (Elt F) := Function.update (B6 m c) main_v48 (o7 m c)

def outsB : Outs (F := F) := fun J r c =>
  if J = 2 then B2 m c r else if J = 4 then B4 m c r else if J = 6 then B6 m c r else B7 m c r

theorem o2_def (c : Dev nD) : o2 m c = (dat0 (vr (B1 m)) c).arrAt 1 cfg0.N := by unfold o2; rfl
theorem o4_def (c : Dev nD) : o4 m c = (dat1 (vr (B3 m)) c).arrAt 6 cfg1.N := by unfold o4; rfl
theorem o6_def (c : Dev nD) : o6 m c = (dat2 (vr (B5 m)) c).arrAt 6 cfg2.N := by unfold o6; rfl
theorem o7_def (c : Dev nD) : o7 m c = (dat3 (vr (B6 m)) c).arrAt 4 cfg3.N := by unfold o7; rfl

theorem outs2 (c : Dev nD) : outsB m 2 main_v12 c = o2 m c := by
  unfold outsB; rw [if_pos rfl]; exact Function.update_self ..
theorem outs4 (c : Dev nD) : outsB m 4 main_v34 c = o4 m c := by
  unfold outsB; rw [if_neg (by decide), if_pos rfl]; exact Function.update_self ..
theorem outs6 (c : Dev nD) : outsB m 6 main_v47 c = o6 m c := by
  unfold outsB; rw [if_neg (by decide), if_neg (by decide), if_pos rfl]; exact Function.update_self ..
theorem outs7 (c : Dev nD) : outsB m 7 main_v48 c = o7 m c := by
  unfold outsB; rw [if_neg (by decide), if_neg (by decide), if_neg (by decide)]; exact Function.update_self ..

theorem V2_eq (c : Dev nD) : V2 m (outsB m) c = B2 m c := by
  show Function.update (V1 m c) main_v12 (outsB m 2 main_v12 c) = Function.update (V1 m c) main_v12 (o2 m c)
  rw [outs2]
theorem V3_eq (c : Dev nD) : V3 m (outsB m) c = B3 m c := by
  show StableHlo.after hostOps1 (V2 m (outsB m) c) = StableHlo.after hostOps1 (B2 m c)
  rw [V2_eq]
theorem V4_eq (c : Dev nD) : V4 m (outsB m) c = B4 m c := by
  show Function.update (V3 m (outsB m) c) main_v34 (outsB m 4 main_v34 c) = Function.update (B3 m c) main_v34 (o4 m c)
  rw [V3_eq, outs4]
theorem V5_eq (c : Dev nD) : V5 m (outsB m) c = B5 m c := by
  show StableHlo.after hostOps2 (V4 m (outsB m) c) = StableHlo.after hostOps2 (B4 m c)
  rw [V4_eq]
theorem V6_eq (c : Dev nD) : V6 m (outsB m) c = B6 m c := by
  show Function.update (V5 m (outsB m) c) main_v47 (outsB m 6 main_v47 c) = Function.update (B5 m c) main_v47 (o6 m c)
  rw [V5_eq, outs6]
theorem V7_eq (c : Dev nD) : V7 m (outsB m) c = B7 m c := by
  show Function.update (V6 m (outsB m) c) main_v48 (outsB m 7 main_v48 c) = Function.update (B6 m c) main_v48 (o7 m c)
  rw [V6_eq, outs7]

theorem B2_ne (c : Dev nD) (b : Ref sig .tc) (h : b ≠ main_v12) : vr (B2 m) c b = vr (B1 m) c b :=
  Function.update_of_ne (StableHlo.devRef_ne_of_ne h) _ _
theorem B4_ne (c : Dev nD) (b : Ref sig .tc) (h : b ≠ main_v34) : vr (B4 m) c b = vr (B3 m) c b :=
  Function.update_of_ne (StableHlo.devRef_ne_of_ne h) _ _
theorem B6_ne (c : Dev nD) (b : Ref sig .tc) (h : b ≠ main_v47) : vr (B6 m) c b = vr (B5 m) c b :=
  Function.update_of_ne (StableHlo.devRef_ne_of_ne h) _ _
theorem B7_ne (c : Dev nD) (b : Ref sig .tc) (h : b ≠ main_v48) : vr (B7 m) c b = vr (B6 m) c b :=
  Function.update_of_ne (StableHlo.devRef_ne_of_ne h) _ _
theorem B2_out (c : Dev nD) : vr (B2 m) c main_v12 = o2 m c := Function.update_self ..
theorem B4_out (c : Dev nD) : vr (B4 m) c main_v34 = o4 m c := Function.update_self ..
theorem B6_out (c : Dev nD) : vr (B6 m) c main_v47 = o6 m c := Function.update_self ..
theorem B7_out (c : Dev nD) : vr (B7 m) c main_v48 = o7 m c := Function.update_self ..

theorem keep0 (c : Dev nD) (r : Ref sig .tc) (h : r ∉ hostOps0_W) : vr (B1 m) c r = m ((c : Thread nD τ).loc r) :=
  V1_of m c r h
theorem keep1 (c : Dev nD) (r : Ref sig .tc) (h : r ∉ hostOps1_W) : vr (B3 m) c r = vr (B2 m) c r :=
  StableHlo.after_of_writes_sub hostOps1 _ hostOps1_writes h
theorem keep2 (c : Dev nD) (r : Ref sig .tc) (h : r ∉ hostOps2_W) : vr (B5 m) c r = vr (B4 m) c r :=
  StableHlo.after_of_writes_sub hostOps2 _ hostOps2_writes h

end Cert.KernelIdeal.Hand

end
-- ==== Proof.KI.R0Body.lean ====
import proofs.«425038_j72541997629469_1_alg».proof.Proof.KI.R0Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0 (c : Dev nD) (t : Fin cfg0.N) (d) : (dat0 V c).before 0 t d = iblk0 V c 0 t := by
  have hkeep : ∀ t', (cfg0.win 0).cut (cfg0.grid.coords t') ((dat0 V c).after 0 t') = (dat0 V c).blockOf 0 t' := by
    intro t'
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

theorem whole0_1 (p : Vec F S2000x128 .f32) (y : S2000x128.Idx) :
    ∃ pc ∈ ([⟨rB0, p⟩] : List (View.Piece (Elt F) S2000x128 .f32)), y ∈ pc.1.set :=
  View.cover_of_tiled [⟨rB0, p⟩] S2000x128.size (by rfl) y

set_option maxHeartbeats 1000000 in

theorem run_kernel0 (c : Dev nD) (E : Set ℕ) (i : grid0.Coords)
    (a0 : Memref sig .tc .vmem S2000x128 .f32) (ha0 : a0.IsWhole) (a1 : Memref sig .tc .vmem S2000x128 .f32) (ha1 : a1.IsWhole)
    (x : Vec F S2000x128 .f32) (K : PUnit → sProp 𝕄) :
    iprop(owns (c : Thread nD τ) a0 fullShare x ∗ (∃ d, owns (c : Thread nD τ) a1 fullShare d)
        ∗ (iprop(owns (c : Thread nD τ) a0 fullShare x ∗ owns (c : Thread nD τ) a1 fullShare (out0_1 x)) -∗ K ⟨⟩))
      ⊢ wp frame (wpE (defs₀ (F := F)) Variants.none c none) E (cc0__preprocess_kernel i a0 ha0 a1 ha1) K := by
  simp only [cc0__preprocess_kernel_eq_skeleton]; unfold cc0__preprocess_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (whole0_1 _)

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem run_body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (run_kernel0 c Set.univ _ _ _ _ _ (iblk0 V c 0 t) _)
  iframe H0
  isplitl [H1]; · iexists _; iexact H1
  iintro ⟨H0, H1⟩
  iframe

theorem body_obligation0 (c : Dev nD) : BodyObligation (dat0 (F := F) V c) (defs₀ (F := F)) Variants.none () Set.univ := fun t => by
  rw [bigSep_W0, bigSep_W0]
  exact run_body0 V c t

end Cert.KernelIdeal.Hand

end
-- ==== Proof.KI.R1Body.lean ====
import proofs.«425038_j72541997629469_1_alg».proof.Proof.KI.R1Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem whole1_6 (p : Vec F S2000x128 .f32) (y : S2000x128.Idx) :
    ∃ pc ∈ ([⟨rB1, p⟩] : List (View.Piece (Elt F) S2000x128 .f32)), y ∈ pc.1.set :=
  View.cover_of_tiled [⟨rB1, p⟩] S2000x128.size (by rfl) y

set_option maxHeartbeats 1000000 in

theorem run_kernel1 (c : Dev nD) (E : Set ℕ) (i : grid1.Coords)
    (a0 : Memref sig .tc .vmem S2000x128 .f32) (ha0 : a0.IsWhole)
    (a1 : Memref sig .tc .vmem S2000x128 .f32) (ha1 : a1.IsWhole)
    (a2 : Memref sig .tc .vmem S128x128 .bf16) (ha2 : a2.IsWhole)
    (a3 : Memref sig .tc .vmem S128x128 .bf16) (ha3 : a3.IsWhole)
    (a4 : Memref sig .tc .vmem S128x256 .bf16) (ha4 : a4.IsWhole)
    (a5 : Memref sig .tc .vmem S128 .f32) (ha5 : a5.IsWhole)
    (a6 : Memref sig .tc .vmem S2000x128 .f32) (ha6 : a6.IsWhole)
    (x0 : Vec F S2000x128 .f32) (x1 : Vec F S2000x128 .f32) (x2 : Vec F S128x128 .bf16) (x3 : Vec F S128x128 .bf16) (x4 : Vec F S128x256 .bf16) (x5 : Vec F S128 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (out1_6 x0 x1 x2 x3 x4 x5)) -∗ K ⟨⟩))
      ⊢ wp frame (wpE (defs₀ (F := F)) Variants.none c none) E
          (cc1__sage_fc_kernel i a0 ha0 a1 ha1 a2 ha2 a3 ha3 a4 ha4 a5 ha5 a6 ha6) K := by
  simp only [cc1__sage_fc_kernel_eq_skeleton]; unfold cc1__sage_fc_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (whole1_6 _)

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem run_body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact run_body1 V c t

end Cert.KernelIdeal.Hand

end
-- ==== Proof.KI.R2Body.lean ====
import proofs.«425038_j72541997629469_1_alg».proof.Proof.KI.R2Defs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

theorem whole2_6 (p : Vec F S2000x128 .f32) (y : S2000x128.Idx) :
    ∃ pc ∈ ([⟨rB2, p⟩] : List (View.Piece (Elt F) S2000x128 .f32)), y ∈ pc.1.set :=
  View.cover_of_tiled [⟨rB2, p⟩] S2000x128.size (by rfl) y

set_option maxHeartbeats 1000000 in

theorem run_kernel2 (c : Dev nD) (E : Set ℕ) (i : grid2.Coords)
    (a0 : Memref sig .tc .vmem S2000x128 .f32) (ha0 : a0.IsWhole)
    (a1 : Memref sig .tc .vmem S2000x128 .f32) (ha1 : a1.IsWhole)
    (a2 : Memref sig .tc .vmem S128x128 .bf16) (ha2 : a2.IsWhole)
    (a3 : Memref sig .tc .vmem S128x128 .bf16) (ha3 : a3.IsWhole)
    (a4 : Memref sig .tc .vmem S128x256 .bf16) (ha4 : a4.IsWhole)
    (a5 : Memref sig .tc .vmem S128 .f32) (ha5 : a5.IsWhole)
    (a6 : Memref sig .tc .vmem S2000x128 .f32) (ha6 : a6.IsWhole)
    (x0 : Vec F S2000x128 .f32) (x1 : Vec F S2000x128 .f32) (x2 : Vec F S128x128 .bf16) (x3 : Vec F S128x128 .bf16) (x4 : Vec F S128x256 .bf16) (x5 : Vec F S128 .f32)
    (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (out2_6 x0 x1 x2 x3 x4 x5)) -∗ K ⟨⟩))
      ⊢ wp frame (wpE (defs₀ (F := F)) Variants.none c none) E
          (cc2__sage_fc_kernel i a0 ha0 a1 ha1 a2 ha2 a3 ha3 a4 ha4 a5 ha5 a6 ha6) K := by
  simp only [cc2__sage_fc_kernel_eq_skeleton]; unfold cc2__sage_fc_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (whole2_6 _)

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem run_body2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact run_body2 V c t

end Cert.KernelIdeal.Hand

end
-- ==== Proof.KI.R3Body.lean ====
import proofs.«425038_j72541997629469_1_alg».proof.Proof.KI.R3Defs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop :=
  (Scalar.cmpi .ne (Scalar.extui (Scalar.cmpi .eq (BitVec.ofNat 32 (i 0).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1

theorem hcond3_1 : ∀ t : Fin cfg3.N, cond3_1 (grid3.coords t) ↔ t.val % 25 = 24 :=
  (by decide +kernel : ∀ t : Fin grid3.N, cond3_1 (grid3.coords t) ↔ t.val % 25 = 24)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

theorem idleAt3_4 : ∀ t : Fin cfg3.N, ¬cond3_1 (grid3.coords t) → cfg3.idle 4 (grid3.coords t) = true := by decide +kernel

theorem noFlush3_4 : ∀ t : Fin cfg3.N, ¬cond3_1 (grid3.coords t) → (cfg3.win 4).flush t = false := by decide +kernel

theorem liveAt3_4 : ∀ t : Fin cfg3.N, cond3_1 (grid3.coords t) → cfg3.idle 4 (grid3.coords t) = false := by decide +kernel

abbrev ms3_0 (t : Fin cfg3.N) : Memref sig .tc .vmem S2000x128 .f32 := win3_0.stage (cfg3.slots t 0)
abbrev ms3_1 (t : Fin cfg3.N) : Memref sig .tc .vmem S2000x1 .i32 := win3_1.stage (cfg3.slots t 1)
abbrev ms3_2 (t : Fin cfg3.N) : Memref sig .tc .vmem S128x128 .bf16 := win3_2.stage (cfg3.slots t 2)
abbrev ms3_3 (t : Fin cfg3.N) : Memref sig .tc .vmem S128 .f32 := win3_3.stage (cfg3.slots t 3)
abbrev ms3_4 (t : Fin cfg3.N) : Memref sig .tc .vmem S128x128 .f32 := win3_4.stage (cfg3.slots t 4)

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

theorem zeroOff3 : (![0, 0] : Fin 2 → Nat) = fun _ => 0 := funext fun a => by fin_cases a <;> rfl

theorem read_writes_whole3 {κ : Kind} {sp : Space} {e : EltTy} (v : View sig κ sp S128x128 e) (f : v.ty.Contents (Elt F))
    (w : S128x128.Idx → Elt F e) (L : List (View.Piece (Elt F) S128x128 e)) :
    v.read (Elt F) (v.writes (Elt F) f ((⟨Rect.unit (s := S128x128) ![0, 0] S128x128.size inb_S128x128_S128x128_0_0, w⟩ : View.Piece (Elt F) S128x128 e) :: L)) = w :=
  (View.read_writes_eq_canon v f _ (fun y => ⟨(⟨Rect.unit (s := S128x128) ![0, 0] S128x128.size inb_S128x128_S128x128_0_0, w⟩ : View.Piece (Elt F) S128x128 e),
      List.mem_cons_self, View.mem_set_unit_zero (S := S128x128) zeroOff3 inb_S128x128_S128x128_0_0 y⟩)).trans
    (View.canon_cons_unit_zero (S := S128x128) zeroOff3 inb_S128x128_S128x128_0_0 w L)

section Kernel3

variable (c : Dev nD) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x128 .bf16) (harg3 : arg3.IsWhole) (arg4 : Memref sig .tc .vmem S128 .f32) (harg4 : arg4.IsWhole)
    (arg5 : Memref sig .tc .vmem S128x128 .f32) (harg5 : arg5.IsWhole) (arg6 : Memref sig .tc .vmem S128x128 .f32) (harg6 : arg6.IsWhole)

set_option maxHeartbeats 1000000 in

theorem run_kernel3_A
    (hc0 : cond3_0 i) (hc1 : ¬cond3_1 i)
    (x0 : Vec F S2000x128 .f32) (x1 : Vec F S2000x1 .i32) (x2 : Vec F S128x128 .bf16) (x3 : Vec F S128 .f32) (xi4 : Vec F S128x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (accStep x0 x1 (accZero (F := F)))) -∗ K ⟨⟩))
      ⊢ wp frame (wpE (defs₀ (F := F)) Variants.none c none) E (cc3__pool_fc3_kernel i arg1 harg1 arg2 harg2 arg3 harg3 arg4 harg4 arg5 harg5 arg6 harg6) K := by
  simp only [cc3__pool_fc3_kernel_eq_skeleton]; unfold cc3__pool_fc3_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS0
  ipureintro
  sl_unfold_words
  refine (read_writes_whole3 _ _ _ _).trans ?_
  unfold accStep accZero
  rw [View.canon_unit_zero (S := S128x128) zeroOff3]
  simp only [View.readAt_eq_ld, harg1.read_unread, harg2.read_unread, View.readCov_unit_zero (S := S128x128) _ zeroOff3,
    View.canon_unit_zero (S := S128x128) zeroOff3, View.ld_unit_zero (S := S128x128) zeroOff3, rB3, rL3, rW3, rV3]

set_option maxHeartbeats 1000000 in

theorem run_kernel3_B
    (hc0 : ¬cond3_0 i) (hc1 : ¬cond3_1 i)
    (x0 : Vec F S2000x128 .f32) (x1 : Vec F S2000x1 .i32) (x2 : Vec F S128x128 .bf16) (x3 : Vec F S128 .f32) (xi4 : Vec F S128x128 .f32) (xs : Vec F S128x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (accStep x0 x1 xs)) -∗ K ⟨⟩))
      ⊢ wp frame (wpE (defs₀ (F := F)) Variants.none c none) E (cc3__pool_fc3_kernel i arg1 harg1 arg2 harg2 arg3 harg3 arg4 harg4 arg5 harg5 arg6 harg6) K := by
  simp only [cc3__pool_fc3_kernel_eq_skeleton]; unfold cc3__pool_fc3_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS0
  ipureintro
  sl_unfold_words
  refine (read_writes_whole3 _ _ _ _).trans ?_
  unfold accStep
  rw [View.canon_unit_zero (S := S128x128) zeroOff3]
  simp only [View.readAt_eq_ld, harg1.read_unread, harg2.read_unread, harg6.read_unread, View.readCov_unit_zero (S := S128x128) _ zeroOff3,
    View.canon_unit_zero (S := S128x128) zeroOff3, View.ld_unit_zero (S := S128x128) zeroOff3, rB3, rL3, rW3, rV3]

set_option maxHeartbeats 1000000 in

theorem run_kernel3_C
    (hc0 : ¬cond3_0 i) (hc1 : cond3_1 i)
    (x0 : Vec F S2000x128 .f32) (x1 : Vec F S2000x1 .i32) (x2 : Vec F S128x128 .bf16) (x3 : Vec F S128 .f32) (xs : Vec F S128x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (out3_4 x2 x3 (accStep x0 x1 xs))
            ∗ owns (c : Thread nD τ) arg6 fullShare (accStep x0 x1 xs)) -∗ K ⟨⟩))
      ⊢ wp frame (wpE (defs₀ (F := F)) Variants.none c none) E (cc3__pool_fc3_kernel i arg1 harg1 arg2 harg2 arg3 harg3 arg4 harg4 arg5 harg5 arg6 harg6) K := by
  simp only [cc3__pool_fc3_kernel_eq_skeleton]; unfold cc3__pool_fc3_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg1.eq_unread hf0; obtain rfl := harg2.eq_unread hf1; obtain rfl := harg3.eq_unread hf2
  obtain rfl := harg4.eq_unread hf3; obtain rfl := harg6.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (read_writes_whole3 _ _ _ _).trans ?_
    unfold out3_4 accStep
    rw [View.canon_unit_zero (S := S128x128) zeroOff3]
    simp only [View.readAt_eq_ld, harg1.read_unread, harg2.read_unread, harg3.read_unread, harg4.read_unread, harg6.read_unread, View.readCov_unit_zero (S := S128x128) _ zeroOff3,
      View.canon_unit_zero (S := S128x128) zeroOff3, View.ld_unit_zero (S := S128x128) zeroOff3, rB3, rL3, rW3, rV3]
  iexists _; isplitr
  swap; · iexact HS0
  ipureintro
  sl_unfold_words
  refine (read_writes_whole3 _ _ _ _).trans ?_
  unfold accStep
  rw [View.canon_unit_zero (S := S128x128) zeroOff3]
  simp only [View.readAt_eq_ld, harg1.read_unread, harg2.read_unread, harg6.read_unread, View.readCov_unit_zero (S := S128x128) _ zeroOff3,
    View.canon_unit_zero (S := S128x128) zeroOff3, View.ld_unit_zero (S := S128x128) zeroOff3, rB3, rL3, rW3, rV3]

end Kernel3

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (accAt V c n hn) ∗ Pipeline.scopedRestBut (Ix := Unit) (Name := ℕ) (U := UR sig nD τ) (Lvl := ℕ) (Val := Elt F) spec3 c [cc3_scratch0] ∗ (∃ r, prngReg c r)) := rfl

theorem PhiS3_pos (c : Dev nD) (n : ℕ) (h : n ≤ cfg3.N) (hz : n ≠ 0) :
    PhiS3 V c n h = iprop(owns (c : Thread nD τ) scM3 fullShare (accAt V c (n - 1) (by omega)) ∗ Pipeline.scopedRestBut (Ix := Unit) (Name := ℕ) (U := UR sig nD τ) (Lvl := ℕ) (Val := Elt F) spec3 c [cc3_scratch0] ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

theorem accAt_first (c : Dev nD) (t : Fin cfg3.N) (hz : t.val = 0) :
    accAt V c t.val t.isLt = accStep (iblk3 V c 0 t) (iblk3 V c 1 t) (accZero (F := F)) := by
  obtain ⟨n, hn⟩ := t
  cases n with
  | zero => rfl
  | succ n => exact absurd hz (Nat.succ_ne_zero n)

theorem accAt_later (c : Dev nD) (t : Fin cfg3.N) (hz : t.val ≠ 0) :
    accAt V c t.val t.isLt = accStep (iblk3 V c 0 t) (iblk3 V c 1 t)
      (accAt V c (t.val - 1) (Nat.lt_of_le_of_lt (Nat.sub_le _ _) t.isLt)) := by
  obtain ⟨n, hn⟩ := t
  cases n with
  | zero => exact absurd rfl hz
  | succ n => rfl

def pre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def post3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in

theorem run_body3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  have hN : t.val < 25 := lt_of_lt_of_eq t.isLt (show cfg3.N = 25 from N_3)
  by_cases h0 : t.val % 25 = 0
  · have h1 : ¬t.val % 25 = 24 := by omega
    have hz : t.val = 0 := by omega
    rw [Dat.leavesExact_idle (dat3 V c) 4 t (idleAt3_4 t (fun h => h1 ((hcond3_1 t).mp h))) (noFlush3_4 t (fun h => h1 ((hcond3_1 t).mp h)))]
    rw [accAt_first V c t hz, PhiS3_castSucc V c t, PhiS3_zero V c _ _ hz, PhiA3_eq]
    iintro ⟨⟨⟨HS0, Hr⟩, Hg⟩, Ho, ⟨%d0, H0⟩, ⟨%d1, H1⟩, ⟨%d2, H2⟩, ⟨%d3, H3⟩, ⟨%d4, H4⟩⟩
    iapply (run_kernel3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t) _ Set.univ _)
    iframe H0 H1 H2 H3 H4 HS0
    iintro ⟨H0, H1, H2, H3, H4, HS0⟩
    iframe HS0 Hr Hg Ho H0 H1 H2 H3
    iexists _; iexact H4
  · have hz : t.val ≠ 0 := fun e => h0 (by rw [e])
    by_cases h1 : t.val % 25 = 24
    · rw [show (dat3 V c).leavesExact 4 t = owns (c : Thread nD τ) (ms3_4 t) fullShare ((dat3 V c).after 4 t) from by
        unfold Dat.leavesExact; rw [liveAt3_4 t ((hcond3_1 t).mpr h1)], after3_4]
      rw [accAt_later V c t hz, PhiS3_castSucc V c t, PhiS3_pos V c _ _ hz]
      iintro ⟨⟨HS0, Hr, Hg⟩, Ho, ⟨%d0, H0⟩, ⟨%d1, H1⟩, ⟨%d2, H2⟩, ⟨%d3, H3⟩, ⟨%d4, H4⟩⟩
      iapply (run_kernel3_C c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _ Set.univ _)
      iframe H0 H1 H2 H3 HS0
      isplitl [H4]; · iexists _; iexact H4
      iintro ⟨H0, H1, H2, H3, H4, HS0⟩
      iframe
    · rw [Dat.leavesExact_idle (dat3 V c) 4 t (idleAt3_4 t (fun h => h1 ((hcond3_1 t).mp h))) (noFlush3_4 t (fun h => h1 ((hcond3_1 t).mp h)))]
      rw [accAt_later V c t hz, PhiS3_castSucc V c t, PhiS3_pos V c _ _ hz]
      iintro ⟨⟨HS0, Hr, Hg⟩, Ho, ⟨%d0, H0⟩, ⟨%d1, H1⟩, ⟨%d2, H2⟩, ⟨%d3, H3⟩, ⟨%d4, H4⟩⟩
      iapply (run_kernel3_B c (grid3.coords t) _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ Set.univ _)
      iframe H0 H1 H2 H3 H4 HS0
      iintro ⟨H0, H1, H2, H3, H4, HS0⟩
      iframe HS0 Hr Hg Ho H0 H1 H2 H3
      iexists _; iexact H4

theorem body_obligation3 (c : Dev nD) : BodyObligation (dat3 (F := F) V c) (defs₀ (F := F)) Variants.none () Set.univ := fun t => by
  rw [bigSep_W3, bigSep_W3]
  exact run_body3 V c t

theorem hin3 (c : Dev nD) : Pipeline.ΦA spec3 c ⊢ (dat3 (F := F) V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS0, Hr, Hg⟩
  iframe Hr Hg
  iexists _; iexact HS0

theorem hout3 (c : Dev nD) : (dat3 (F := F) V c).Φ (Fin.last cfg3.N) ⊢ Pipeline.ΦA spec3 c :=
  Phi_out3 V c _ (by rw [Fin.val_last]; have : cfg3.N = 25 := N_3; omega)

end Cert.KernelIdeal.Hand

end
-- ==== Proof.KI.Segs.lean ====
import proofs.«425038_j72541997629469_1_alg».proof.Proof.KI.Bounds
import proofs.«425038_j72541997629469_1_alg».proof.Proof.KI.R0Body
import proofs.«425038_j72541997629469_1_alg».proof.Proof.KI.R1Body
import proofs.«425038_j72541997629469_1_alg».proof.Proof.KI.R2Body
import proofs.«425038_j72541997629469_1_alg».proof.Proof.KI.R3Body
import proofs.«425038_j72541997629469_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def pdats (Wa Wb Wc Wd : Dev nD → Valuation τ sig (Elt F)) : (p : Fin 4) → (c : Dev nD) → Dat τ (Elt F) Unit ℕ (UR sig nD τ) ℕ (Pipeline.pin (pcfgs (F := F)) adm p) c
  | ⟨0, _⟩ => fun c => dat0 (vr Wa) c
  | ⟨1, _⟩ => fun c => dat1 (vr Wb) c
  | ⟨2, _⟩ => fun c => dat2 (vr Wc) c
  | ⟨3, _⟩ => fun c => dat3 (vr Wd) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- A region changes the arrays it is given and leaves every other array as it was: said once, for any of the four regions.
set_option backward.isDefEq.respectTransparency.types false in
@[reducible] def regAt (Wa Wb Wc Wd : Dev nD → Valuation τ sig (Elt F)) (p : Fin 4) (W Wp : Dev nD → Valuation τ sig (Elt F))
    (lf : Pipeline.LaunchFacts (nD := nD) (τ := τ) cfgs p)
    (hbody : ∀ c, BodyObligation (pdats Wa Wb Wc Wd p c) (defs₀ (F := F)) 𝒱₀ () Set.univ)
    (hA : ∀ c w, (pdats Wa Wb Wc Wd p c).A w = vr W c (Pipeline.arrRef (cfgs p).spec w))
    (hq : ∀ c w, (pdats Wa Wb Wc Wd p c).q w = fullShare)
    (howed : ∀ c t, (pdats Wa Wb Wc Wd p c).owed t = 0)
    (hrec : ∀ c x, x ∈ (pdats Wa Wb Wc Wd p c).recorded 0)
    (hin : ∀ c, Pipeline.ΦA (cfgs p).spec c ⊢ (pdats Wa Wb Wc Wd p c).Φ 0)
    (hout : ∀ c, (pdats Wa Wb Wc Wd p c).Φ (Fin.last _) ⊢ Pipeline.ΦA (cfgs p).spec c)
    (hF : ∀ c w, (pdats Wa Wb Wc Wd p c).arrAt w (cfgs p).N = vr Wp c (Pipeline.arrRef (cfgs p).spec w))
    (hrest : ∀ c b, b ∉ Finset.univ.image (Pipeline.arrRef (cfgs p).spec) → vr Wp c b = vr W c b) :
    Pipeline.RegionSeg (pcfgs (F := F)) adm (pdats Wa Wb Wc Wd) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (Wp c) ∗ R c)
  X c := iprop(∃ r, prngReg c r)
  Y c := iprop(∃ r, prngReg c r)
  Z c := Pipeline.unscopedRest (Ix := Unit) (Name := ℕ) (U := UR sig nD τ) (Lvl := ℕ) (cfgs p).spec c (vr W c)
  hentry c := by
    rw [Pipeline.ownSems0_none]
    have hsplit := Pipeline.arrays_of_unscopedBufs (p := p) (pcfgs (F := F)) adm (pdats Wa Wb Wc Wd) lf.win lf.arr_whole c
      ((pdats Wa Wb Wc Wd p c).share_full (hq c)) (vr W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; simp only [howed c]
      icases HO with ⟨%W', HO⟩; iexists W'; isplitr; · ipureintro; exact fun x _ => Or.inl (hrec c x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats Wa Wb Wc Wd) ((pdats Wa Wb Wc Wd p c).share_full (hq c))
      (vr W c) (vr Wp c) ((pdats Wa Wb Wc Wd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; simp only [howed c]
    icases HO with ⟨%W', -, HO⟩; iexists W'; iexact HO

abbrev reg0 (Wa Wb Wc Wd Wp : Dev nD → Valuation τ sig (Elt F))
    (hF : ∀ c w, (dat0 (vr Wa) c).arrAt w cfg0.N = vr Wp c (Pipeline.arrRef spec0 w))
    (hrest : ∀ c b, b ∉ Finset.univ.image (Pipeline.arrRef spec0) → vr Wp c b = vr Wa c b) :=
  regAt Wa Wb Wc Wd 0 Wa Wp launch0 (body_obligation0 (vr Wa)) (fun _ _ => rfl) (fun _ _ => rfl) (fun _ _ => rfl) (fun _ _ => trivial)
    (fun _ => .rfl) (fun _ => .rfl) hF hrest

abbrev reg1 (Wa Wb Wc Wd Wp : Dev nD → Valuation τ sig (Elt F))
    (hF : ∀ c w, (dat1 (vr Wb) c).arrAt w cfg1.N = vr Wp c (Pipeline.arrRef spec1 w))
    (hrest : ∀ c b, b ∉ Finset.univ.image (Pipeline.arrRef spec1) → vr Wp c b = vr Wb c b) :=
  regAt Wa Wb Wc Wd 1 Wb Wp launch1 (body_obligation1 (vr Wb)) (fun _ _ => rfl) (fun _ _ => rfl) (fun _ _ => rfl) (fun _ _ => trivial)
    (fun _ => .rfl) (fun _ => .rfl) hF hrest

abbrev reg2 (Wa Wb Wc Wd Wp : Dev nD → Valuation τ sig (Elt F))
    (hF : ∀ c w, (dat2 (vr Wc) c).arrAt w cfg2.N = vr Wp c (Pipeline.arrRef spec2 w))
    (hrest : ∀ c b, b ∉ Finset.univ.image (Pipeline.arrRef spec2) → vr Wp c b = vr Wc c b) :=
  regAt Wa Wb Wc Wd 2 Wc Wp launch2 (body_obligation2 (vr Wc)) (fun _ _ => rfl) (fun _ _ => rfl) (fun _ _ => rfl) (fun _ _ => trivial)
    (fun _ => .rfl) (fun _ => .rfl) hF hrest

abbrev reg3 (Wa Wb Wc Wd Wp : Dev nD → Valuation τ sig (Elt F))
    (hF : ∀ c w, (dat3 (vr Wd) c).arrAt w cfg3.N = vr Wp c (Pipeline.arrRef spec3 w))
    (hrest : ∀ c b, b ∉ Finset.univ.image (Pipeline.arrRef spec3) → vr Wp c b = vr Wd c b) :=
  regAt Wa Wb Wc Wd 3 Wd Wp launch3 (body_obligation3 (vr Wd)) (fun _ _ => rfl) (fun _ _ => rfl) (fun _ _ => rfl) (fun _ _ => trivial)
    (hin3 (vr Wd)) (hout3 (vr Wd)) hF hrest

end Cert.KernelIdeal.Hand

end
-- ==== Proof.KI.RunCond.lean ====
import proofs.«425038_j72541997629469_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, (hpost2 c).trans (hpre3 c), (hpost3 c).trans (sep_mono .rfl (hE4 c))⟩)
    (hinit := ?_) (QY := fun c s => ∀ b ∈ Pipeline.ucRefs τ sig, s.mem ((c : Thread nD τ).1, b) = V7 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (V7 m outs c) s')
    isplitl [Hh] <;> iassumption

end Cert.KernelIdeal.Hand

end
-- ==== Proof.KI.Run.lean ====
import proofs.«425038_j72541997629469_1_alg».proof.Proof.KI.Bounds
import proofs.«425038_j72541997629469_1_alg».proof.Proof.KI.Segs
import proofs.«425038_j72541997629469_1_alg».proof.Proof.KI.RunCond
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF0 (c : Dev nD) (w : Fin cfg0.W) : (dat0 (vr (B1 m)) c).arrAt w cfg0.N = vr (B2 m) c (Pipeline.arrRef spec0 w) := by
  fin_cases w
  · exact ((dat0 (vr (B1 m)) c).arrAt_in 0 rfl _).trans (B2_ne m c main_arg0 (by decide)).symm
  · exact (o2_def m c).symm.trans (B2_out m c).symm
theorem hrest0 (c : Dev nD) (b : Ref sig .tc) (hb : b ∉ Finset.univ.image (Pipeline.arrRef spec0)) : vr (B2 m) c b = vr (B1 m) c b :=
  B2_ne m c b fun h => hb (h ▸ Finset.mem_image.mpr ⟨1, Finset.mem_univ _, rfl⟩)

set_option maxHeartbeats 1000000 in
theorem hF1 (c : Dev nD) (w : Fin cfg1.W) : (dat1 (vr (B3 m)) c).arrAt w cfg1.N = vr (B4 m) c (Pipeline.arrRef spec1 w) := by
  fin_cases w
  · exact ((dat1 (vr (B3 m)) c).arrAt_in 0 rfl _).trans (B4_ne m c main_v33 (by decide)).symm
  · exact ((dat1 (vr (B3 m)) c).arrAt_in 1 rfl _).trans (B4_ne m c main_v12 (by decide)).symm
  · exact ((dat1 (vr (B3 m)) c).arrAt_in 2 rfl _).trans (B4_ne m c main_v5 (by decide)).symm
  · exact ((dat1 (vr (B3 m)) c).arrAt_in 3 rfl _).trans (B4_ne m c main_v6 (by decide)).symm
  · exact ((dat1 (vr (B3 m)) c).arrAt_in 4 rfl _).trans (B4_ne m c main_v9 (by decide)).symm
  · exact ((dat1 (vr (B3 m)) c).arrAt_in 5 rfl _).trans (B4_ne m c main_arg8 (by decide)).symm
  · exact (o4_def m c).symm.trans (B4_out m c).symm
theorem hrest1 (c : Dev nD) (b : Ref sig .tc) (hb : b ∉ Finset.univ.image (Pipeline.arrRef spec1)) : vr (B4 m) c b = vr (B3 m) c b :=
  B4_ne m c b fun h => hb (h ▸ Finset.mem_image.mpr ⟨6, Finset.mem_univ _, rfl⟩)

set_option maxHeartbeats 1000000 in
theorem hF2 (c : Dev nD) (w : Fin cfg2.W) : (dat2 (vr (B5 m)) c).arrAt w cfg2.N = vr (B6 m) c (Pipeline.arrRef spec2 w) := by
  fin_cases w
  · exact ((dat2 (vr (B5 m)) c).arrAt_in 0 rfl _).trans (B6_ne m c main_v46 (by decide)).symm
  · exact ((dat2 (vr (B5 m)) c).arrAt_in 1 rfl _).trans (B6_ne m c main_v34 (by decide)).symm
  · exact ((dat2 (vr (B5 m)) c).arrAt_in 2 rfl _).trans (B6_ne m c main_v7 (by decide)).symm
  · exact ((dat2 (vr (B5 m)) c).arrAt_in 3 rfl _).trans (B6_ne m c main_v8 (by decide)).symm
  · exact ((dat2 (vr (B5 m)) c).arrAt_in 4 rfl _).trans (B6_ne m c main_v10 (by decide)).symm
  · exact ((dat2 (vr (B5 m)) c).arrAt_in 5 rfl _).trans (B6_ne m c main_arg10 (by decide)).symm
  · exact (o6_def m c).symm.trans (B6_out m c).symm
theorem hrest2 (c : Dev nD) (b : Ref sig .tc) (hb : b ∉ Finset.univ.image (Pipeline.arrRef spec2)) : vr (B6 m) c b = vr (B5 m) c b :=
  B6_ne m c b fun h => hb (h ▸ Finset.mem_image.mpr ⟨6, Finset.mem_univ _, rfl⟩)

set_option maxHeartbeats 1000000 in
theorem hF3 (c : Dev nD) (w : Fin cfg3.W) : (dat3 (vr (B6 m)) c).arrAt w cfg3.N = vr (B7 m) c (Pipeline.arrRef spec3 w) := by
  fin_cases w
  · exact ((dat3 (vr (B6 m)) c).arrAt_in 0 rfl _).trans (B7_ne m c main_v47 (by decide)).symm
  · exact ((dat3 (vr (B6 m)) c).arrAt_in 1 rfl _).trans (B7_ne m c main_v4 (by decide)).symm
  · exact ((dat3 (vr (B6 m)) c).arrAt_in 2 rfl _).trans (B7_ne m c main_v11 (by decide)).symm
  · exact ((dat3 (vr (B6 m)) c).arrAt_in 3 rfl _).trans (B7_ne m c main_arg12 (by decide)).symm
  · exact (o7_def m c).symm.trans (B7_out m c).symm
theorem hrest3 (c : Dev nD) (b : Ref sig .tc) (hb : b ∉ Finset.univ.image (Pipeline.arrRef spec3)) : vr (B7 m) c b = vr (B6 m) c b :=
  B7_ne m c b fun h => hb (h ▸ Finset.mem_image.mpr ⟨4, Finset.mem_univ _, rfl⟩)

abbrev pd : (p : Fin 4) → (c : Dev nD) → Dat τ (Elt F) Unit ℕ (UR sig nD τ) ℕ (Pipeline.pin (pcfgs (F := F)) adm p) c :=
  pdats (B1 m) (B3 m) (B5 m) (B6 m)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = B7 m c b) := by
  have h := run_cond (F := F) m (emb₁ (Ix := Unit) (Val := Elt F) (Name := ℕ) (Lvl := ℕ)) () 𝒱₀ L lv (fun _ _ => rfl) ρ (outsB m) (pd m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 (B1 m) (B3 m) (B5 m) (B6 m) (B2 m) (hF0 m) (hrest0 m))
    (hpre0 := fun c => .rfl)
    (hpost0 := fun c => by rw [V2_eq])
    (R1 := reg1 (B1 m) (B3 m) (B5 m) (B6 m) (B4 m) (hF1 m) (hrest1 m))
    (hpre1 := fun c => by rw [V3_eq])
    (hpost1 := fun c => by rw [V4_eq])
    (R2 := reg2 (B1 m) (B3 m) (B5 m) (B6 m) (B6 m) (hF2 m) (hrest2 m))
    (hpre2 := fun c => by rw [V5_eq])
    (hpost2 := fun c => by rw [V6_eq])
    (R3 := reg3 (B1 m) (B3 m) (B5 m) (B6 m) (B7 m) (hF3 m) (hrest3 m))
    (hpre3 := fun c => by rw [V6_eq])
    (hpost3 := fun c => by rw [V7_eq])
  exact (θ_run defs _ _).mono (fun r hr c b hb => (hr c b hb).trans (by rw [V7_eq])) h

theorem run_args_result (ρ : Dev nD → PrngReg) :
    θ_run defs (onTc (τ := τ) (main (F := F))) ⟨m, fun _ => 0, ρ⟩ (fun r => ∀ c : Dev nD,
      r.2.mem ((c.tc : Thread nD τ).loc main_v48) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r hr c => ?_) (run_all m ρ)
  have hv : ∀ (b : Ref sig .tc) (h : ¬ (Proc.devRef .tc b : DevRef τ sig).isScoped),
      r.2.mem ((c.tc : Thread nD τ).loc b) = V7 m (outsB m) c b := fun b h => (hr c _ (mem_uc b h)).trans (by rw [V7_eq])
  exact ⟨(hr c _ (mem_uc main_v48 (by decide))).trans (B7_out m c),
    (hv main_arg0 (by decide)).trans (V7_main_arg0 m (outsB m) c), (hv main_arg1 (by decide)).trans (V7_main_arg1 m (outsB m) c),
    (hv main_arg2 (by decide)).trans (V7_main_arg2 m (outsB m) c), (hv main_arg3 (by decide)).trans (V7_main_arg3 m (outsB m) c),
    (hv main_arg4 (by decide)).trans (V7_main_arg4 m (outsB m) c), (hv main_arg5 (by decide)).trans (V7_main_arg5 m (outsB m) c),
    (hv main_arg6 (by decide)).trans (V7_main_arg6 m (outsB m) c), (hv main_arg7 (by decide)).trans (V7_main_arg7 m (outsB m) c),
    (hv main_arg8 (by decide)).trans (V7_main_arg8 m (outsB m) c), (hv main_arg9 (by decide)).trans (V7_main_arg9 m (outsB m) c),
    (hv main_arg10 (by decide)).trans (V7_main_arg10 m (outsB m) c), (hv main_arg11 (by decide)).trans (V7_main_arg11 m (outsB m) c),
    (hv main_arg12 (by decide)).trans (V7_main_arg12 m (outsB m) c)⟩

end Cert.KernelIdeal.Hand

end
-- ==== Proof.RefRead.lean ====
import proofs.«425038_j72541997629469_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S50000x128, .f32⟩ : BufTy).Contents (Elt F)) (x1 : (⟨S2x600000, .i32⟩ : BufTy).Contents (Elt F)) (x2 : (⟨S50000, .i32⟩ : BufTy).Contents (Elt F)) (x3 x4 x5 x6 : (⟨S128x128, .f32⟩ : BufTy).Contents (Elt F)) (x7 : (⟨S128x256, .f32⟩ : BufTy).Contents (Elt F)) (x8 : (⟨S128, .f32⟩ : BufTy).Contents (Elt F)) (x9 : (⟨S128x256, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F))

def val_main_v0 : (⟨S1x600000, .i32⟩ : BufTy).Contents (Elt F) :=
  extractStridedSlice S1x600000 ![0, 0] (x1) slices_S2x600000_S1x600000_0_0

def val_main_v1 : (⟨S600000, .i32⟩ : BufTy).Contents (Elt F) :=
  shapeCast _ (val_main_v0 (F := F) x1) shapeCasts_S1x600000_S600000

def val_main_v2 : (⟨S1x600000, .i32⟩ : BufTy).Contents (Elt F) :=
  extractStridedSlice S1x600000 ![1, 0] (x1) slices_S2x600000_S1x600000_1_0

def val_main_v3 : (⟨S600000, .i32⟩ : BufTy).Contents (Elt F) :=
  shapeCast _ (val_main_v2 (F := F) x1) shapeCasts_S1x600000_S600000

def val_main_cst : (⟨S_, .f32⟩ : BufTy).Contents (Elt F) :=
  constant S_ .f32 0x00000000#32

def val_main_v4 : (⟨S50000, .f32⟩ : BufTy).Contents (Elt F) :=
  Host.reduceAdd (x0) (val_main_cst (F := F)) reducesTo_S50000x128_S50000_d1 h_S_

abbrev idx_main_v4 (i : S50000.Idx) (k : Fin 128) : S50000x128.Idx := fun a => match a with
  | ⟨0, _⟩ => ⟨(i 0).val, (i 0).isLt⟩
  | ⟨1, _⟩ => ⟨k.val, k.isLt⟩

theorem val_main_v4_apply (x0 : (⟨S50000x128, .f32⟩ : BufTy).Contents (Elt Ideal)) (i : S50000.Idx) :
    val_main_v4 (F := Ideal) x0 i = (val_main_cst (F := Ideal)) (Shape.Idx.first h_S_) + ∑ k : Fin 128, x0 (idx_main_v4 i k) := by
  unfold val_main_v4
  simp only [Host.reduceAdd, Ideal.hostReduceAdd_def]
  rw [Ideal.hostReduceAdd_single reducesTo_S50000x128_S50000_d1 (by decide)]
  refine congrArg (_ + ·) (Finset.sum_congr rfl fun k _ => ?_)
  exact congrArg x0 (funext fun a => Fin.ext (by match a with | ⟨0, _⟩ => rfl | ⟨1, _⟩ => rfl))

def val_main_cst_0 : (⟨S_, .f32⟩ : BufTy).Contents (Elt F) :=
  constant S_ .f32 0x00000000#32

def val_main_v5 : (⟨S50000, .f32⟩ : BufTy).Contents (Elt F) :=
  broadcastInDim S50000 ![] bcast_S_S50000 (val_main_cst_0 (F := F))

abbrev idx_main_v5 (i : S50000.Idx) : S_.Idx := fun a => a.elim0

theorem val_main_v5_apply (i : S50000.Idx) :
    val_main_v5 (F := F) i = val_main_cst_0 (F := F) (idx_main_v5 i) := by
  unfold val_main_v5
  generalize val_main_cst_0 (F := F) = y
  exact broadcastInDim_apply _ bcast_S_S50000 y i (idx_main_v5 i) (fun a => a.elim0)

def val_main_v6 : (⟨S50000, .i1⟩ : BufTy).Contents (Elt F) :=
  cmpf .oeq (val_main_v4 (F := F) x0) (val_main_v5 (F := F))

theorem val_main_v6_apply (i : S50000.Idx) :
    val_main_v6 (F := F) x0 i = FloatOps.cmpf .oeq (val_main_v4 (F := F) x0 i) (val_main_v5 (F := F) i) := rfl

def val_main_cst_1 : (⟨S_, .f32⟩ : BufTy).Contents (Elt F) :=
  constant S_ .f32 0x3F800000#32

def val_main_v7 : (⟨S50000, .f32⟩ : BufTy).Contents (Elt F) :=
  broadcastInDim S50000 ![] bcast_S_S50000 (val_main_cst_1 (F := F))

abbrev idx_main_v7 (i : S50000.Idx) : S_.Idx := fun a => a.elim0

theorem val_main_v7_apply (i : S50000.Idx) :
    val_main_v7 (F := F) i = val_main_cst_1 (F := F) (idx_main_v7 i) := by
  unfold val_main_v7
  generalize val_main_cst_1 (F := F) = y
  exact broadcastInDim_apply _ bcast_S_S50000 y i (idx_main_v7 i) (fun a => a.elim0)

def val_main_v8 : (⟨S50000, .f32⟩ : BufTy).Contents (Elt F) :=
  Host.divf (val_main_v7 (F := F)) (val_main_v4 (F := F) x0)

theorem val_main_v8_apply (i : S50000.Idx) :
    val_main_v8 (F := F) x0 i = FloatOps.hostDivf (val_main_v7 (F := F) i) (val_main_v4 (F := F) x0 i) := rfl

def val_main_cst_2 : (⟨S_, .f32⟩ : BufTy).Contents (Elt F) :=
  constant S_ .f32 0x00000000#32

def val_main_call0_v0 : (⟨S_, .f32⟩ : BufTy).Contents (Elt F) :=
  id (val_main_cst_2 (F := F))

def val_main_call0_v1 : (⟨S50000, .f32⟩ : BufTy).Contents (Elt F) :=
  broadcastInDim S50000 ![] bcast_S_S50000 (val_main_call0_v0 (F := F))

abbrev idx_main_call0_v1 (i : S50000.Idx) : S_.Idx := fun a => a.elim0

theorem val_main_call0_v1_apply (i : S50000.Idx) :
    val_main_call0_v1 (F := F) i = val_main_call0_v0 (F := F) (idx_main_call0_v1 i) := by
  unfold val_main_call0_v1
  generalize val_main_call0_v0 (F := F) = y
  exact broadcastInDim_apply _ bcast_S_S50000 y i (idx_main_call0_v1 i) (fun a => a.elim0)

def val_main_v9 : (⟨S50000, .f32⟩ : BufTy).Contents (Elt F) :=
  select (val_main_v6 (F := F) x0) (val_main_call0_v1 (F := F)) (val_main_v8 (F := F) x0)

theorem val_main_v9_apply (i : S50000.Idx) :
    val_main_v9 (F := F) x0 i = Scalar.select (val_main_v6 (F := F) x0 i) (val_main_call0_v1 (F := F) i) (val_main_v8 (F := F) x0 i) := rfl

def val_main_v10 : (⟨S50000x1, .f32⟩ : BufTy).Contents (Elt F) :=
  broadcastInDim S50000x1 ![0] bcast_S50000_S50000x1_0 (val_main_v9 (F := F) x0)

abbrev idx_main_v10 (i : S50000x1.Idx) : S50000.Idx := fun a => match a with
  | ⟨0, _⟩ => ⟨(i 0).val, (i 0).isLt⟩

theorem val_main_v10_apply (i : S50000x1.Idx) :
    val_main_v10 (F := F) x0 i = val_main_v9 (F := F) x0 (idx_main_v10 i) := by
  unfold val_main_v10
  generalize val_main_v9 (F := F) x0 = y
  exact broadcastInDim_apply _ bcast_S50000_S50000x1_0 y i (idx_main_v10 i) (fun a => match a with
    | ⟨0, _⟩ => by show (i 0).val = if (50000 : Nat) = 1 then 0 else (i 0).val; rw [if_neg (by decide)])

def val_main_v11 : (⟨S50000x128, .f32⟩ : BufTy).Contents (Elt F) :=
  broadcastInDim S50000x128 ![0, 1] bcast_S50000x1_S50000x128_0_1 (val_main_v10 (F := F) x0)

abbrev idx_main_v11 (i : S50000x128.Idx) : S50000x1.Idx := fun a => match a with
  | ⟨0, _⟩ => ⟨(i 0).val, (i 0).isLt⟩
  | ⟨1, _⟩ => ⟨0, Nat.one_pos⟩

theorem val_main_v11_apply (i : S50000x128.Idx) :
    val_main_v11 (F := F) x0 i = val_main_v10 (F := F) x0 (idx_main_v11 i) := by
  unfold val_main_v11
  generalize val_main_v10 (F := F) x0 = y
  exact broadcastInDim_apply _ bcast_S50000x1_S50000x128_0_1 y i (idx_main_v11 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v12 : (⟨S50000x128, .f32⟩ : BufTy).Contents (Elt F) :=
  mulf (x0) (val_main_v11 (F := F) x0)

theorem val_main_v12_apply (i : S50000x128.Idx) :
    val_main_v12 (F := F) x0 i = FloatOps.mulf (x0 i) (val_main_v11 (F := F) x0 i) := rfl

def val_main_c : (⟨S_, .i32⟩ : BufTy).Contents (Elt F) :=
  constantI S_ 32 0#32

def val_main_v13 : (⟨S600000, .i32⟩ : BufTy).Contents (Elt F) :=
  broadcastInDim S600000 ![] bcast_S_S600000 (val_main_c (F := F))

def val_main_v14 : (⟨S600000, .i1⟩ : BufTy).Contents (Elt F) :=
  cmpi .slt (val_main_v1 (F := F) x1) (val_main_v13 (F := F))

def val_main_c_3 : (⟨S_, .i32⟩ : BufTy).Contents (Elt F) :=
  constantI S_ 32 50000#32

def val_main_v15 : (⟨S600000, .i32⟩ : BufTy).Contents (Elt F) :=
  broadcastInDim S600000 ![] bcast_S_S600000 (val_main_c_3 (F := F))

def val_main_v16 : (⟨S600000, .i32⟩ : BufTy).Contents (Elt F) :=
  addi (val_main_v1 (F := F) x1) (val_main_v15 (F := F))

def val_main_v17 : (⟨S600000, .i32⟩ : BufTy).Contents (Elt F) :=
  select (val_main_v14 (F := F) x1) (val_main_v16 (F := F) x1) (val_main_v1 (F := F) x1)

def val_main_v18 : (⟨S600000x1, .i32⟩ : BufTy).Contents (Elt F) :=
  broadcastInDim S600000x1 ![0] bcast_S600000_S600000x1_0 (val_main_v17 (F := F) x1)

def val_main_v19 : (⟨S600000x128, .f32⟩ : BufTy).Contents (Elt F) :=
  Host.gather gather_S50000x128_S600000x1_S600000x128_1_0_n_n_0_1_1128 (val_main_v12 (F := F) x0) (val_main_v18 (F := F) x1)

def val_main_cst_4 : (⟨S_, .f32⟩ : BufTy).Contents (Elt F) :=
  constant S_ .f32 0x00000000#32

def val_main_v20 : (⟨S50000x128, .f32⟩ : BufTy).Contents (Elt F) :=
  broadcastInDim S50000x128 ![] bcast_S_S50000x128 (val_main_cst_4 (F := F))

def val_main_v21 : (⟨S600000x1, .i32⟩ : BufTy).Contents (Elt F) :=
  broadcastInDim S600000x1 ![0] bcast_S600000_S600000x1_0 (val_main_v3 (F := F) x1)

def val_main_v22 : (⟨S50000x128, .f32⟩ : BufTy).Contents (Elt F) :=
  Host.scatterAdd scatter_S50000x128_S600000x1_S600000x128_1_0_0_1 (val_main_v20 (F := F)) (val_main_v21 (F := F) x1) (val_main_v19 (F := F) x0 x1)

def val_main_cst_5 : (⟨S_, .f32⟩ : BufTy).Contents (Elt F) :=
  constant S_ .f32 0x3F800000#32

def val_main_v23 : (⟨S600000, .f32⟩ : BufTy).Contents (Elt F) :=
  broadcastInDim S600000 ![] bcast_S_S600000 (val_main_cst_5 (F := F))

def val_main_cst_6 : (⟨S_, .f32⟩ : BufTy).Contents (Elt F) :=
  constant S_ .f32 0x00000000#32

def val_main_v24 : (⟨S50000, .f32⟩ : BufTy).Contents (Elt F) :=
  broadcastInDim S50000 ![] bcast_S_S50000 (val_main_cst_6 (F := F))

def val_main_v25 : (⟨S600000x1, .i32⟩ : BufTy).Contents (Elt F) :=
  broadcastInDim S600000x1 ![0] bcast_S600000_S600000x1_0 (val_main_v3 (F := F) x1)

def val_main_v26 : (⟨S50000, .f32⟩ : BufTy).Contents (Elt F) :=
  Host.scatterAdd scatter_S50000_S600000x1_S600000_n_0_0_1 (val_main_v24 (F := F)) (val_main_v25 (F := F) x1) (val_main_v23 (F := F))

def val_main_cst_7 : (⟨S_, .f32⟩ : BufTy).Contents (Elt F) :=
  constant S_ .f32 0x3F800000#32

def val_main_v27 : (⟨S50000, .f32⟩ : BufTy).Contents (Elt F) :=
  broadcastInDim S50000 ![] bcast_S_S50000 (val_main_cst_7 (F := F))

def val_main_v28 : (⟨S50000, .f32⟩ : BufTy).Contents (Elt F) :=
  maximumf (val_main_v26 (F := F) x1) (val_main_v27 (F := F))

def val_main_v29 : (⟨S50000x1, .f32⟩ : BufTy).Contents (Elt F) :=
  broadcastInDim S50000x1 ![0] bcast_S50000_S50000x1_0 (val_main_v28 (F := F) x1)

abbrev idx_main_v29 (i : S50000x1.Idx) : S50000.Idx := fun a => match a with
  | ⟨0, _⟩ => ⟨(i 0).val, (i 0).isLt⟩

theorem val_main_v29_apply (i : S50000x1.Idx) :
    val_main_v29 (F := F) x1 i = val_main_v28 (F := F) x1 (idx_main_v29 i) := by
  unfold val_main_v29
  generalize val_main_v28 (F := F) x1 = y
  exact broadcastInDim_apply _ bcast_S50000_S50000x1_0 y i (idx_main_v29 i) (fun a => match a with
    | ⟨0, _⟩ => by show (i 0).val = if (50000 : Nat) = 1 then 0 else (i 0).val; rw [if_neg (by decide)])

def val_main_v30 : (⟨S50000x128, .f32⟩ : BufTy).Contents (Elt F) :=
  broadcastInDim S50000x128 ![0, 1] bcast_S50000x1_S50000x128_0_1 (val_main_v29 (F := F) x1)

abbrev idx_main_v30 (i : S50000x128.Idx) : S50000x1.Idx := fun a => match a with
  | ⟨0, _⟩ => ⟨(i 0).val, (i 0).isLt⟩
  | ⟨1, _⟩ => ⟨0, Nat.one_pos⟩

theorem val_main_v30_apply (i : S50000x128.Idx) :
    val_main_v30 (F := F) x1 i = val_main_v29 (F := F) x1 (idx_main_v30 i) := by
  unfold val_main_v30
  generalize val_main_v29 (F := F) x1 = y
  exact broadcastInDim_apply _ bcast_S50000x1_S50000x128_0_1 y i (idx_main_v30 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v31 : (⟨S50000x128, .f32⟩ : BufTy).Contents (Elt F) :=
  Host.divf (val_main_v22 (F := F) x0 x1) (val_main_v30 (F := F) x1)

theorem val_main_v31_apply (i : S50000x128.Idx) :
    val_main_v31 (F := F) x0 x1 i = FloatOps.hostDivf (val_main_v22 (F := F) x0 x1 i) (val_main_v30 (F := F) x1 i) := rfl

def val_main_v32 : (⟨S128x128, .f32⟩ : BufTy).Contents (Elt F) :=
  transpose S128x128 [1, 0] (x3) transposes_S128x128_S128x128_1_0

def val_main_v33 : (⟨S50000x128, .f32⟩ : BufTy).Contents (Elt F) :=
  Host.dotGeneral dot_S50000x128_S128x128_S50000x128_1_0_0_1_n_n none (val_main_v31 (F := F) x0 x1) (val_main_v32 (F := F) x3)

theorem lhs_main_v33_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem lhs_main_v33_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_main_v33_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_main_v33_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

def val_main_v34 : (⟨S128x128, .f32⟩ : BufTy).Contents (Elt F) :=
  transpose S128x128 [1, 0] (x4) transposes_S128x128_S128x128_1_0

def val_main_v35 : (⟨S50000x128, .f32⟩ : BufTy).Contents (Elt F) :=
  Host.dotGeneral dot_S50000x128_S128x128_S50000x128_1_0_0_1_n_n none (val_main_v12 (F := F) x0) (val_main_v34 (F := F) x4)

def val_main_v36 : (⟨S50000x128, .f32⟩ : BufTy).Contents (Elt F) :=
  addf (val_main_v33 (F := F) x0 x1 x3) (val_main_v35 (F := F) x0 x4)

def val_main_v37 : (⟨S50000x128, .f32⟩ : BufTy).Contents (Elt F) :=
  mulf (val_main_v36 (F := F) x0 x1 x3 x4) (val_main_v36 (F := F) x0 x1 x3 x4)

def val_main_cst_8 : (⟨S_, .f32⟩ : BufTy).Contents (Elt F) :=
  constant S_ .f32 0x00000000#32

def val_main_v38 : (⟨S50000, .f32⟩ : BufTy).Contents (Elt F) :=
  Host.reduceAdd (val_main_v37 (F := F) x0 x1 x3 x4) (val_main_cst_8 (F := F)) reducesTo_S50000x128_S50000_d1 h_S_

def val_main_v39 : (⟨S50000x1, .f32⟩ : BufTy).Contents (Elt F) :=
  broadcastInDim S50000x1 ![0] bcast_S50000_S50000x1_0 (val_main_v38 (F := F) x0 x1 x3 x4)

def val_main_v40 : (⟨S50000x1, .f32⟩ : BufTy).Contents (Elt F) :=
  Host.sqrt (val_main_v39 (F := F) x0 x1 x3 x4)

def val_main_cst_9 : (⟨S_, .f32⟩ : BufTy).Contents (Elt F) :=
  constant S_ .f32 0x2B8CBCCC#32

def val_main_v41 : (⟨S50000x1, .f32⟩ : BufTy).Contents (Elt F) :=
  broadcastInDim S50000x1 ![] bcast_S_S50000x1 (val_main_cst_9 (F := F))

def val_main_v42 : (⟨S50000x1, .f32⟩ : BufTy).Contents (Elt F) :=
  maximumf (val_main_v40 (F := F) x0 x1 x3 x4) (val_main_v41 (F := F))

def val_main_v43 : (⟨S50000x128, .f32⟩ : BufTy).Contents (Elt F) :=
  broadcastInDim S50000x128 ![0, 1] bcast_S50000x1_S50000x128_0_1 (val_main_v42 (F := F) x0 x1 x3 x4)

def val_main_v44 : (⟨S50000x128, .f32⟩ : BufTy).Contents (Elt F) :=
  Host.divf (val_main_v36 (F := F) x0 x1 x3 x4) (val_main_v43 (F := F) x0 x1 x3 x4)

def val_main_cst_10 : (⟨S_, .f32⟩ : BufTy).Contents (Elt F) :=
  constant S_ .f32 0x00000000#32

def val_main_v45 : (⟨S50000x128, .f32⟩ : BufTy).Contents (Elt F) :=
  broadcastInDim S50000x128 ![] bcast_S_S50000x128 (val_main_cst_10 (F := F))

def val_main_v46 : (⟨S50000x128, .i1⟩ : BufTy).Contents (Elt F) :=
  cmpf .oge (val_main_v44 (F := F) x0 x1 x3 x4) (val_main_v45 (F := F))

def val_main_cst_11 : (⟨S_, .f32⟩ : BufTy).Contents (Elt F) :=
  constant S_ .f32 0x3C23D70A#32

def val_main_v47 : (⟨S50000x128, .f32⟩ : BufTy).Contents (Elt F) :=
  broadcastInDim S50000x128 ![] bcast_S_S50000x128 (val_main_cst_11 (F := F))

def val_main_v48 : (⟨S50000x128, .f32⟩ : BufTy).Contents (Elt F) :=
  mulf (val_main_v47 (F := F)) (val_main_v44 (F := F) x0 x1 x3 x4)

def val_main_v49 : (⟨S50000x128, .f32⟩ : BufTy).Contents (Elt F) :=
  select (val_main_v46 (F := F) x0 x1 x3 x4) (val_main_v44 (F := F) x0 x1 x3 x4) (val_main_v48 (F := F) x0 x1 x3 x4)

def val_main_v50 : (⟨S50000x256, .f32⟩ : BufTy).Contents (Elt F) :=
  concatenate S50000x256 1 [⟨S50000x128, (val_main_v49 (F := F) x0 x1 x3 x4)⟩, ⟨S50000x128, (val_main_v12 (F := F) x0)⟩] concatenates_S50000x128_S50000x128_S50000x256_d1

def val_main_v51 : (⟨S256x128, .f32⟩ : BufTy).Contents (Elt F) :=
  transpose S256x128 [1, 0] (x7) transposes_S128x256_S256x128_1_0

def val_main_v52 : (⟨S50000x128, .f32⟩ : BufTy).Contents (Elt F) :=
  Host.dotGeneral dot_S50000x256_S256x128_S50000x128_1_0_0_1_n_n none (val_main_v50 (F := F) x0 x1 x3 x4) (val_main_v51 (F := F) x7)

theorem lhs_main_v52_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl

theorem lhs_main_v52_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q

theorem rhs_main_v52_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q

theorem rhs_main_v52_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

def val_main_v53 : (⟨S1x128, .f32⟩ : BufTy).Contents (Elt F) :=
  broadcastInDim S1x128 ![1] bcast_S128_S1x128_1 (x8)

def val_main_v54 : (⟨S50000x128, .f32⟩ : BufTy).Contents (Elt F) :=
  broadcastInDim S50000x128 ![0, 1] bcast_S1x128_S50000x128_0_1 (val_main_v53 (F := F) x8)

def val_main_v55 : (⟨S50000x128, .f32⟩ : BufTy).Contents (Elt F) :=
  addf (val_main_v52 (F := F) x0 x1 x3 x4 x7) (val_main_v54 (F := F) x8)

def val_main_cst_12 : (⟨S_, .f32⟩ : BufTy).Contents (Elt F) :=
  constant S_ .f32 0x00000000#32

def val_main_v56 : (⟨S50000x128, .f32⟩ : BufTy).Contents (Elt F) :=
  broadcastInDim S50000x128 ![] bcast_S_S50000x128 (val_main_cst_12 (F := F))

def val_main_v57 : (⟨S50000x128, .i1⟩ : BufTy).Contents (Elt F) :=
  cmpf .oge (val_main_v55 (F := F) x0 x1 x3 x4 x7 x8) (val_main_v56 (F := F))

def val_main_cst_13 : (⟨S_, .f32⟩ : BufTy).Contents (Elt F) :=
  constant S_ .f32 0x3C23D70A#32

def val_main_v58 : (⟨S50000x128, .f32⟩ : BufTy).Contents (Elt F) :=
  broadcastInDim S50000x128 ![] bcast_S_S50000x128 (val_main_cst_13 (F := F))

def val_main_v59 : (⟨S50000x128, .f32⟩ : BufTy).Contents (Elt F) :=
  mulf (val_main_v58 (F := F)) (val_main_v55 (F := F) x0 x1 x3 x4 x7 x8)

def val_main_v60 : (⟨S50000x128, .f32⟩ : BufTy).Contents (Elt F) :=
  select (val_main_v57 (F := F) x0 x1 x3 x4 x7 x8) (val_main_v55 (F := F) x0 x1 x3 x4 x7 x8) (val_main_v59 (F := F) x0 x1 x3 x4 x7 x8)

def val_main_c_14 : (⟨S_, .i32⟩ : BufTy).Contents (Elt F) :=
  constantI S_ 32 0#32

def val_main_v61 : (⟨S600000, .i32⟩ : BufTy).Contents (Elt F) :=
  broadcastInDim S600000 ![] bcast_S_S600000 (val_main_c_14 (F := F))

def val_main_v62 : (⟨S600000, .i1⟩ : BufTy).Contents (Elt F) :=
  cmpi .slt (val_main_v1 (F := F) x1) (val_main_v61 (F := F))

def val_main_c_15 : (⟨S_, .i32⟩ : BufTy).Contents (Elt F) :=
  constantI S_ 32 50000#32

def val_main_v63 : (⟨S600000, .i32⟩ : BufTy).Contents (Elt F) :=
  broadcastInDim S600000 ![] bcast_S_S600000 (val_main_c_15 (F := F))

def val_main_v64 : (⟨S600000, .i32⟩ : BufTy).Contents (Elt F) :=
  addi (val_main_v1 (F := F) x1) (val_main_v63 (F := F))

def val_main_v65 : (⟨S600000, .i32⟩ : BufTy).Contents (Elt F) :=
  select (val_main_v62 (F := F) x1) (val_main_v64 (F := F) x1) (val_main_v1 (F := F) x1)

def val_main_v66 : (⟨S600000x1, .i32⟩ : BufTy).Contents (Elt F) :=
  broadcastInDim S600000x1 ![0] bcast_S600000_S600000x1_0 (val_main_v65 (F := F) x1)

def val_main_v67 : (⟨S600000x128, .f32⟩ : BufTy).Contents (Elt F) :=
  Host.gather gather_S50000x128_S600000x1_S600000x128_1_0_n_n_0_1_1128 (val_main_v60 (F := F) x0 x1 x3 x4 x7 x8) (val_main_v66 (F := F) x1)

def val_main_cst_16 : (⟨S_, .f32⟩ : BufTy).Contents (Elt F) :=
  constant S_ .f32 0x00000000#32

def val_main_v68 : (⟨S50000x128, .f32⟩ : BufTy).Contents (Elt F) :=
  broadcastInDim S50000x128 ![] bcast_S_S50000x128 (val_main_cst_16 (F := F))

def val_main_v69 : (⟨S600000x1, .i32⟩ : BufTy).Contents (Elt F) :=
  broadcastInDim S600000x1 ![0] bcast_S600000_S600000x1_0 (val_main_v3 (F := F) x1)

def val_main_v70 : (⟨S50000x128, .f32⟩ : BufTy).Contents (Elt F) :=
  Host.scatterAdd scatter_S50000x128_S600000x1_S600000x128_1_0_0_1 (val_main_v68 (F := F)) (val_main_v69 (F := F) x1) (val_main_v67 (F := F) x0 x1 x3 x4 x7 x8)

def val_main_cst_17 : (⟨S_, .f32⟩ : BufTy).Contents (Elt F) :=
  constant S_ .f32 0x3F800000#32

def val_main_v71 : (⟨S600000, .f32⟩ : BufTy).Contents (Elt F) :=
  broadcastInDim S600000 ![] bcast_S_S600000 (val_main_cst_17 (F := F))

def val_main_cst_18 : (⟨S_, .f32⟩ : BufTy).Contents (Elt F) :=
  constant S_ .f32 0x00000000#32

def val_main_v72 : (⟨S50000, .f32⟩ : BufTy).Contents (Elt F) :=
  broadcastInDim S50000 ![] bcast_S_S50000 (val_main_cst_18 (F := F))

def val_main_v73 : (⟨S600000x1, .i32⟩ : BufTy).Contents (Elt F) :=
  broadcastInDim S600000x1 ![0] bcast_S600000_S600000x1_0 (val_main_v3 (F := F) x1)

def val_main_v74 : (⟨S50000, .f32⟩ : BufTy).Contents (Elt F) :=
  Host.scatterAdd scatter_S50000_S600000x1_S600000_n_0_0_1 (val_main_v72 (F := F)) (val_main_v73 (F := F) x1) (val_main_v71 (F := F))

def val_main_cst_19 : (⟨S_, .f32⟩ : BufTy).Contents (Elt F) :=
  constant S_ .f32 0x3F800000#32

def val_main_v75 : (⟨S50000, .f32⟩ : BufTy).Contents (Elt F) :=
  broadcastInDim S50000 ![] bcast_S_S50000 (val_main_cst_19 (F := F))

def val_main_v76 : (⟨S50000, .f32⟩ : BufTy).Contents (Elt F) :=
  maximumf (val_main_v74 (F := F) x1) (val_main_v75 (F := F))

def val_main_v77 : (⟨S50000x1, .f32⟩ : BufTy).Contents (Elt F) :=
  broadcastInDim S50000x1 ![0] bcast_S50000_S50000x1_0 (val_main_v76 (F := F) x1)

abbrev idx_main_v77 (i : S50000x1.Idx) : S50000.Idx := fun a => match a with
  | ⟨0, _⟩ => ⟨(i 0).val, (i 0).isLt⟩

theorem val_main_v77_apply (i : S50000x1.Idx) :
    val_main_v77 (F := F) x1 i = val_main_v76 (F := F) x1 (idx_main_v77 i) := by
  unfold val_main_v77
  generalize val_main_v76 (F := F) x1 = y
  exact broadcastInDim_apply _ bcast_S50000_S50000x1_0 y i (idx_main_v77 i) (fun a => match a with
    | ⟨0, _⟩ => by show (i 0).val = if (50000 : Nat) = 1 then 0 else (i 0).val; rw [if_neg (by decide)])

def val_main_v78 : (⟨S50000x128, .f32⟩ : BufTy).Contents (Elt F) :=
  broadcastInDim S50000x128 ![0, 1] bcast_S50000x1_S50000x128_0_1 (val_main_v77 (F := F) x1)

abbrev idx_main_v78 (i : S50000x128.Idx) : S50000x1.Idx := fun a => match a with
  | ⟨0, _⟩ => ⟨(i 0).val, (i 0).isLt⟩
  | ⟨1, _⟩ => ⟨0, Nat.one_pos⟩

theorem val_main_v78_apply (i : S50000x128.Idx) :
    val_main_v78 (F := F) x1 i = val_main_v77 (F := F) x1 (idx_main_v78 i) := by
  unfold val_main_v78
  generalize val_main_v77 (F := F) x1 = y
  exact broadcastInDim_apply _ bcast_S50000x1_S50000x128_0_1 y i (idx_main_v78 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v79 : (⟨S50000x128, .f32⟩ : BufTy).Contents (Elt F) :=
  Host.divf (val_main_v70 (F := F) x0 x1 x3 x4 x7 x8) (val_main_v78 (F := F) x1)

theorem val_main_v79_apply (i : S50000x128.Idx) :
    val_main_v79 (F := F) x0 x1 x3 x4 x7 x8 i = FloatOps.hostDivf (val_main_v70 (F := F) x0 x1 x3 x4 x7 x8 i) (val_main_v78 (F := F) x1 i) := rfl

def val_main_v80 : (⟨S128x128, .f32⟩ : BufTy).Contents (Elt F) :=
  transpose S128x128 [1, 0] (x5) transposes_S128x128_S128x128_1_0

def val_main_v81 : (⟨S50000x128, .f32⟩ : BufTy).Contents (Elt F) :=
  Host.dotGeneral dot_S50000x128_S128x128_S50000x128_1_0_0_1_n_n none (val_main_v79 (F := F) x0 x1 x3 x4 x7 x8) (val_main_v80 (F := F) x5)

def val_main_v82 : (⟨S128x128, .f32⟩ : BufTy).Contents (Elt F) :=
  transpose S128x128 [1, 0] (x6) transposes_S128x128_S128x128_1_0

def val_main_v83 : (⟨S50000x128, .f32⟩ : BufTy).Contents (Elt F) :=
  Host.dotGeneral dot_S50000x128_S128x128_S50000x128_1_0_0_1_n_n none (val_main_v60 (F := F) x0 x1 x3 x4 x7 x8) (val_main_v82 (F := F) x6)

def val_main_v84 : (⟨S50000x128, .f32⟩ : BufTy).Contents (Elt F) :=
  addf (val_main_v81 (F := F) x0 x1 x3 x4 x5 x7 x8) (val_main_v83 (F := F) x0 x1 x3 x4 x6 x7 x8)

def val_main_v85 : (⟨S50000x128, .f32⟩ : BufTy).Contents (Elt F) :=
  mulf (val_main_v84 (F := F) x0 x1 x3 x4 x5 x6 x7 x8) (val_main_v84 (F := F) x0 x1 x3 x4 x5 x6 x7 x8)

def val_main_cst_20 : (⟨S_, .f32⟩ : BufTy).Contents (Elt F) :=
  constant S_ .f32 0x00000000#32

def val_main_v86 : (⟨S50000, .f32⟩ : BufTy).Contents (Elt F) :=
  Host.reduceAdd (val_main_v85 (F := F) x0 x1 x3 x4 x5 x6 x7 x8) (val_main_cst_20 (F := F)) reducesTo_S50000x128_S50000_d1 h_S_

def val_main_v87 : (⟨S50000x1, .f32⟩ : BufTy).Contents (Elt F) :=
  broadcastInDim S50000x1 ![0] bcast_S50000_S50000x1_0 (val_main_v86 (F := F) x0 x1 x3 x4 x5 x6 x7 x8)

def val_main_v88 : (⟨S50000x1, .f32⟩ : BufTy).Contents (Elt F) :=
  Host.sqrt (val_main_v87 (F := F) x0 x1 x3 x4 x5 x6 x7 x8)

def val_main_cst_21 : (⟨S_, .f32⟩ : BufTy).Contents (Elt F) :=
  constant S_ .f32 0x2B8CBCCC#32

def val_main_v89 : (⟨S50000x1, .f32⟩ : BufTy).Contents (Elt F) :=
  broadcastInDim S50000x1 ![] bcast_S_S50000x1 (val_main_cst_21 (F := F))

def val_main_v90 : (⟨S50000x1, .f32⟩ : BufTy).Contents (Elt F) :=
  maximumf (val_main_v88 (F := F) x0 x1 x3 x4 x5 x6 x7 x8) (val_main_v89 (F := F))

def val_main_v91 : (⟨S50000x128, .f32⟩ : BufTy).Contents (Elt F) :=
  broadcastInDim S50000x128 ![0, 1] bcast_S50000x1_S50000x128_0_1 (val_main_v90 (F := F) x0 x1 x3 x4 x5 x6 x7 x8)

def val_main_v92 : (⟨S50000x128, .f32⟩ : BufTy).Contents (Elt F) :=
  Host.divf (val_main_v84 (F := F) x0 x1 x3 x4 x5 x6 x7 x8) (val_main_v91 (F := F) x0 x1 x3 x4 x5 x6 x7 x8)

def val_main_cst_22 : (⟨S_, .f32⟩ : BufTy).Contents (Elt F) :=
  constant S_ .f32 0x00000000#32

def val_main_v93 : (⟨S50000x128, .f32⟩ : BufTy).Contents (Elt F) :=
  broadcastInDim S50000x128 ![] bcast_S_S50000x128 (val_main_cst_22 (F := F))

def val_main_v94 : (⟨S50000x128, .i1⟩ : BufTy).Contents (Elt F) :=
  cmpf .oge (val_main_v92 (F := F) x0 x1 x3 x4 x5 x6 x7 x8) (val_main_v93 (F := F))

def val_main_cst_23 : (⟨S_, .f32⟩ : BufTy).Contents (Elt F) :=
  constant S_ .f32 0x3C23D70A#32

def val_main_v95 : (⟨S50000x128, .f32⟩ : BufTy).Contents (Elt F) :=
  broadcastInDim S50000x128 ![] bcast_S_S50000x128 (val_main_cst_23 (F := F))

def val_main_v96 : (⟨S50000x128, .f32⟩ : BufTy).Contents (Elt F) :=
  mulf (val_main_v95 (F := F)) (val_main_v92 (F := F) x0 x1 x3 x4 x5 x6 x7 x8)

def val_main_v97 : (⟨S50000x128, .f32⟩ : BufTy).Contents (Elt F) :=
  select (val_main_v94 (F := F) x0 x1 x3 x4 x5 x6 x7 x8) (val_main_v92 (F := F) x0 x1 x3 x4 x5 x6 x7 x8) (val_main_v96 (F := F) x0 x1 x3 x4 x5 x6 x7 x8)

def val_main_v98 : (⟨S50000x256, .f32⟩ : BufTy).Contents (Elt F) :=
  concatenate S50000x256 1 [⟨S50000x128, (val_main_v97 (F := F) x0 x1 x3 x4 x5 x6 x7 x8)⟩, ⟨S50000x128, (val_main_v60 (F := F) x0 x1 x3 x4 x7 x8)⟩] concatenates_S50000x128_S50000x128_S50000x256_d1

def val_main_v99 : (⟨S256x128, .f32⟩ : BufTy).Contents (Elt F) :=
  transpose S256x128 [1, 0] (x9) transposes_S128x256_S256x128_1_0

def val_main_v100 : (⟨S50000x128, .f32⟩ : BufTy).Contents (Elt F) :=
  Host.dotGeneral dot_S50000x256_S256x128_S50000x128_1_0_0_1_n_n none (val_main_v98 (F := F) x0 x1 x3 x4 x5 x6 x7 x8) (val_main_v99 (F := F) x9)

def val_main_v101 : (⟨S1x128, .f32⟩ : BufTy).Contents (Elt F) :=
  broadcastInDim S1x128 ![1] bcast_S128_S1x128_1 (x10)

def val_main_v102 : (⟨S50000x128, .f32⟩ : BufTy).Contents (Elt F) :=
  broadcastInDim S50000x128 ![0, 1] bcast_S1x128_S50000x128_0_1 (val_main_v101 (F := F) x10)

def val_main_v103 : (⟨S50000x128, .f32⟩ : BufTy).Contents (Elt F) :=
  addf (val_main_v100 (F := F) x0 x1 x3 x4 x5 x6 x7 x8 x9) (val_main_v102 (F := F) x10)

def val_main_cst_24 : (⟨S_, .f32⟩ : BufTy).Contents (Elt F) :=
  constant S_ .f32 0x00000000#32

def val_main_v104 : (⟨S50000x128, .f32⟩ : BufTy).Contents (Elt F) :=
  broadcastInDim S50000x128 ![] bcast_S_S50000x128 (val_main_cst_24 (F := F))

def val_main_v105 : (⟨S50000x128, .i1⟩ : BufTy).Contents (Elt F) :=
  cmpf .oge (val_main_v103 (F := F) x0 x1 x3 x4 x5 x6 x7 x8 x9 x10) (val_main_v104 (F := F))

def val_main_cst_25 : (⟨S_, .f32⟩ : BufTy).Contents (Elt F) :=
  constant S_ .f32 0x3C23D70A#32

def val_main_v106 : (⟨S50000x128, .f32⟩ : BufTy).Contents (Elt F) :=
  broadcastInDim S50000x128 ![] bcast_S_S50000x128 (val_main_cst_25 (F := F))

def val_main_v107 : (⟨S50000x128, .f32⟩ : BufTy).Contents (Elt F) :=
  mulf (val_main_v106 (F := F)) (val_main_v103 (F := F) x0 x1 x3 x4 x5 x6 x7 x8 x9 x10)

def val_main_v108 : (⟨S50000x128, .f32⟩ : BufTy).Contents (Elt F) :=
  select (val_main_v105 (F := F) x0 x1 x3 x4 x5 x6 x7 x8 x9 x10) (val_main_v103 (F := F) x0 x1 x3 x4 x5 x6 x7 x8 x9 x10) (val_main_v107 (F := F) x0 x1 x3 x4 x5 x6 x7 x8 x9 x10)

def val_main_cst_26 : (⟨S_, .f32⟩ : BufTy).Contents (Elt F) :=
  constant S_ .f32 0x00000000#32

theorem val_main_cst_26_apply (i : S_.Idx) :
    val_main_cst_26 (F := F) i = FloatOps.ofBits .f32 0x00000000#32 := rfl

def val_main_v109 : (⟨S128x128, .f32⟩ : BufTy).Contents (Elt F) :=
  broadcastInDim S128x128 ![] bcast_S_S128x128 (val_main_cst_26 (F := F))

abbrev idx_main_v109 (i : S128x128.Idx) : S_.Idx := fun a => a.elim0

theorem val_main_v109_apply (i : S128x128.Idx) :
    val_main_v109 (F := F) i = val_main_cst_26 (F := F) (idx_main_v109 i) := by
  unfold val_main_v109
  generalize val_main_cst_26 (F := F) = y
  exact broadcastInDim_apply _ bcast_S_S128x128 y i (idx_main_v109 i) (fun a => a.elim0)

def val_main_v110 : (⟨S50000x1, .i32⟩ : BufTy).Contents (Elt F) :=
  broadcastInDim S50000x1 ![0] bcast_S50000_S50000x1_0 (x2)

abbrev idx_main_v110 (i : S50000x1.Idx) : S50000.Idx := fun a => match a with
  | ⟨0, _⟩ => ⟨(i 0).val, (i 0).isLt⟩

theorem val_main_v110_apply (i : S50000x1.Idx) :
    val_main_v110 (F := F) x2 i = x2 (idx_main_v110 i) := by
  unfold val_main_v110
  exact broadcastInDim_apply _ bcast_S50000_S50000x1_0 x2 i (idx_main_v110 i) (fun a => match a with
    | ⟨0, _⟩ => by show (i 0).val = if (50000 : Nat) = 1 then 0 else (i 0).val; rw [if_neg (by decide)])

def val_main_v111 : (⟨S128x128, .f32⟩ : BufTy).Contents (Elt F) :=
  Host.scatterAdd scatter_S128x128_S50000x1_S50000x128_1_0_0_1 (val_main_v109 (F := F)) (val_main_v110 (F := F) x2) (val_main_v108 (F := F) x0 x1 x3 x4 x5 x6 x7 x8 x9 x10)

def val_main_v112 : (⟨S128x128, .f32⟩ : BufTy).Contents (Elt F) :=
  transpose S128x128 [1, 0] (x11) transposes_S128x128_S128x128_1_0

abbrev idx_main_v112 (i : S128x128.Idx) : S128x128.Idx := fun a => match a with
  | ⟨0, _⟩ => ⟨(i 1).val, (i 1).isLt⟩
  | ⟨1, _⟩ => ⟨(i 0).val, (i 0).isLt⟩

theorem val_main_v112_apply (i : S128x128.Idx) :
    val_main_v112 (F := F) x11 i = x11 (idx_main_v112 i) := by
  unfold val_main_v112
  exact transpose_apply [1, 0] x11 transposes_S128x128_S128x128_1_0 i (idx_main_v112 i) (fun b => match b with
    | ⟨0, _⟩ => rfl
    | ⟨1, _⟩ => rfl)

def val_main_v113 : (⟨S128x128, .f32⟩ : BufTy).Contents (Elt F) :=
  Host.dotGeneral dot_S128x128_S128x128_S128x128_1_0_0_1_n_n none (val_main_v111 (F := F) x0 x1 x2 x3 x4 x5 x6 x7 x8 x9 x10) (val_main_v112 (F := F) x11)

theorem lhs_main_v113_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl

theorem lhs_main_v113_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q

theorem rhs_main_v113_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q

theorem rhs_main_v113_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

abbrev lidx_main_v113 (i : S128x128.Idx) (k : Fin 128) : S128x128.Idx := fun a => match a with
  | ⟨0, _⟩ => ⟨(i 0).val, (i 0).isLt⟩
  | ⟨1, _⟩ => ⟨k.val, k.isLt⟩

abbrev ridx_main_v113 (i : S128x128.Idx) (k : Fin 128) : S128x128.Idx := fun a => match a with
  | ⟨0, _⟩ => ⟨k.val, k.isLt⟩
  | ⟨1, _⟩ => ⟨(i 1).val, (i 1).isLt⟩

theorem val_main_v113_apply (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 x4 x5 x6 : (⟨S128x128, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (x10 : (⟨S128, .f32⟩ : BufTy).Contents (Elt Ideal)) (x11 : (⟨S128x128, .f32⟩ : BufTy).Contents (Elt Ideal)) (i : S128x128.Idx) :
    val_main_v113 (F := Ideal) x0 x1 x2 x3 x4 x5 x6 x7 x8 x9 x10 x11 i = ∑ k : Fin 128, (val_main_v111 (F := Ideal) x0 x1 x2 x3 x4 x5 x6 x7 x8 x9 x10) (lidx_main_v113 i k) * (val_main_v112 (F := Ideal) x11) (ridx_main_v113 i k) := by
  unfold val_main_v113
  generalize val_main_v111 (F := Ideal) x0 x1 x2 x3 x4 x5 x6 x7 x8 x9 x10 = y0
  generalize val_main_v112 (F := Ideal) x11 = y1
  simp only [Host.dotGeneral]
  rw [Ideal.dotGeneral_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx i ((ValueIdx.contrEquiv1 dot_S128x128_S128x128_S128x128_1_0_0_1_n_n 128 rfl rfl).symm k) = lidx_main_v113 i k := funext fun a => Fin.ext (by
    match a with
    | ⟨0, _⟩ => exact lhs_main_v113_0 _ _
    | ⟨1, _⟩ => exact (lhs_main_v113_1 _ _).trans hk)
  have er : dot_S128x128_S128x128_S128x128_1_0_0_1_n_n.rhsIdx i ((ValueIdx.contrEquiv1 dot_S128x128_S128x128_S128x128_1_0_0_1_n_n 128 rfl rfl).symm k) = ridx_main_v113 i k := funext fun a => Fin.ext (by
    match a with
    | ⟨0, _⟩ => exact (rhs_main_v113_0 _ _).trans hk
    | ⟨1, _⟩ => exact rhs_main_v113_1 _ _)
  rw [el, er]

def val_main_v114 : (⟨S1x128, .f32⟩ : BufTy).Contents (Elt F) :=
  broadcastInDim S1x128 ![1] bcast_S128_S1x128_1 (x12)

abbrev idx_main_v114 (i : S1x128.Idx) : S128.Idx := fun a => match a with
  | ⟨0, _⟩ => ⟨(i 1).val, (i 1).isLt⟩

theorem val_main_v114_apply (i : S1x128.Idx) :
    val_main_v114 (F := F) x12 i = x12 (idx_main_v114 i) := by
  unfold val_main_v114
  exact broadcastInDim_apply _ bcast_S128_S1x128_1 x12 i (idx_main_v114 i) (fun a => match a with
    | ⟨0, _⟩ => by show (i 1).val = if (128 : Nat) = 1 then 0 else (i 1).val; rw [if_neg (by decide)])

def val_main_v115 : (⟨S128x128, .f32⟩ : BufTy).Contents (Elt F) :=
  broadcastInDim S128x128 ![0, 1] bcast_S1x128_S128x128_0_1 (val_main_v114 (F := F) x12)

abbrev idx_main_v115 (i : S128x128.Idx) : S1x128.Idx := fun a => match a with
  | ⟨0, _⟩ => ⟨0, Nat.one_pos⟩
  | ⟨1, _⟩ => ⟨(i 1).val, (i 1).isLt⟩

theorem val_main_v115_apply (i : S128x128.Idx) :
    val_main_v115 (F := F) x12 i = val_main_v114 (F := F) x12 (idx_main_v115 i) := by
  unfold val_main_v115
  generalize val_main_v114 (F := F) x12 = y
  exact broadcastInDim_apply _ bcast_S1x128_S128x128_0_1 y i (idx_main_v115 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v116 : (⟨S128x128, .f32⟩ : BufTy).Contents (Elt F) :=
  addf (val_main_v113 (F := F) x0 x1 x2 x3 x4 x5 x6 x7 x8 x9 x10 x11) (val_main_v115 (F := F) x12)

theorem val_main_v116_apply (i : S128x128.Idx) :
    val_main_v116 (F := F) x0 x1 x2 x3 x4 x5 x6 x7 x8 x9 x10 x11 x12 i = FloatOps.addf (val_main_v113 (F := F) x0 x1 x2 x3 x4 x5 x6 x7 x8 x9 x10 x11 i) (val_main_v115 (F := F) x12 i) := rfl

def val_main_cst_27 : (⟨S_, .f32⟩ : BufTy).Contents (Elt F) :=
  constant S_ .f32 0x00000000#32

theorem val_main_cst_27_apply (i : S_.Idx) :
    val_main_cst_27 (F := F) i = FloatOps.ofBits .f32 0x00000000#32 := rfl

def val_main_v117 : (⟨S128x128, .f32⟩ : BufTy).Contents (Elt F) :=
  broadcastInDim S128x128 ![] bcast_S_S128x128 (val_main_cst_27 (F := F))

abbrev idx_main_v117 (i : S128x128.Idx) : S_.Idx := fun a => a.elim0

theorem val_main_v117_apply (i : S128x128.Idx) :
    val_main_v117 (F := F) i = val_main_cst_27 (F := F) (idx_main_v117 i) := by
  unfold val_main_v117
  generalize val_main_cst_27 (F := F) = y
  exact broadcastInDim_apply _ bcast_S_S128x128 y i (idx_main_v117 i) (fun a => a.elim0)

def val_main_v118 : (⟨S128x128, .i1⟩ : BufTy).Contents (Elt F) :=
  cmpf .oge (val_main_v116 (F := F) x0 x1 x2 x3 x4 x5 x6 x7 x8 x9 x10 x11 x12) (val_main_v117 (F := F))

theorem val_main_v118_apply (i : S128x128.Idx) :
    val_main_v118 (F := F) x0 x1 x2 x3 x4 x5 x6 x7 x8 x9 x10 x11 x12 i = FloatOps.cmpf .oge (val_main_v116 (F := F) x0 x1 x2 x3 x4 x5 x6 x7 x8 x9 x10 x11 x12 i) (val_main_v117 (F := F) i) := rfl

def val_main_cst_28 : (⟨S_, .f32⟩ : BufTy).Contents (Elt F) :=
  constant S_ .f32 0x3C23D70A#32

theorem val_main_cst_28_apply (i : S_.Idx) :
    val_main_cst_28 (F := F) i = FloatOps.ofBits .f32 0x3C23D70A#32 := rfl

def val_main_v119 : (⟨S128x128, .f32⟩ : BufTy).Contents (Elt F) :=
  broadcastInDim S128x128 ![] bcast_S_S128x128 (val_main_cst_28 (F := F))

abbrev idx_main_v119 (i : S128x128.Idx) : S_.Idx := fun a => a.elim0

theorem val_main_v119_apply (i : S128x128.Idx) :
    val_main_v119 (F := F) i = val_main_cst_28 (F := F) (idx_main_v119 i) := by
  unfold val_main_v119
  generalize val_main_cst_28 (F := F) = y
  exact broadcastInDim_apply _ bcast_S_S128x128 y i (idx_main_v119 i) (fun a => a.elim0)

def val_main_v120 : (⟨S128x128, .f32⟩ : BufTy).Contents (Elt F) :=
  mulf (val_main_v119 (F := F)) (val_main_v116 (F := F) x0 x1 x2 x3 x4 x5 x6 x7 x8 x9 x10 x11 x12)

theorem val_main_v120_apply (i : S128x128.Idx) :
    val_main_v120 (F := F) x0 x1 x2 x3 x4 x5 x6 x7 x8 x9 x10 x11 x12 i = FloatOps.mulf (val_main_v119 (F := F) i) (val_main_v116 (F := F) x0 x1 x2 x3 x4 x5 x6 x7 x8 x9 x10 x11 x12 i) := rfl

def val_main_v121 : (⟨S128x128, .f32⟩ : BufTy).Contents (Elt F) :=
  select (val_main_v118 (F := F) x0 x1 x2 x3 x4 x5 x6 x7 x8 x9 x10 x11 x12) (val_main_v116 (F := F) x0 x1 x2 x3 x4 x5 x6 x7 x8 x9 x10 x11 x12) (val_main_v120 (F := F) x0 x1 x2 x3 x4 x5 x6 x7 x8 x9 x10 x11 x12)

theorem val_main_v121_apply (i : S128x128.Idx) :
    val_main_v121 (F := F) x0 x1 x2 x3 x4 x5 x6 x7 x8 x9 x10 x11 x12 i = Scalar.select (val_main_v118 (F := F) x0 x1 x2 x3 x4 x5 x6 x7 x8 x9 x10 x11 x12 i) (val_main_v116 (F := F) x0 x1 x2 x3 x4 x5 x6 x7 x8 x9 x10 x11 x12 i) (val_main_v120 (F := F) x0 x1 x2 x3 x4 x5 x6 x7 x8 x9 x10 x11 x12 i) := rfl

def val_main_v122 : (⟨S128x128, .f32⟩ : BufTy).Contents (Elt F) :=
  mulf (val_main_v121 (F := F) x0 x1 x2 x3 x4 x5 x6 x7 x8 x9 x10 x11 x12) (val_main_v121 (F := F) x0 x1 x2 x3 x4 x5 x6 x7 x8 x9 x10 x11 x12)

theorem val_main_v122_apply (i : S128x128.Idx) :
    val_main_v122 (F := F) x0 x1 x2 x3 x4 x5 x6 x7 x8 x9 x10 x11 x12 i = FloatOps.mulf (val_main_v121 (F := F) x0 x1 x2 x3 x4 x5 x6 x7 x8 x9 x10 x11 x12 i) (val_main_v121 (F := F) x0 x1 x2 x3 x4 x5 x6 x7 x8 x9 x10 x11 x12 i) := rfl

def val_main_cst_29 : (⟨S_, .f32⟩ : BufTy).Contents (Elt F) :=
  constant S_ .f32 0x00000000#32

theorem val_main_cst_29_apply (i : S_.Idx) :
    val_main_cst_29 (F := F) i = FloatOps.ofBits .f32 0x00000000#32 := rfl

def val_main_v123 : (⟨S128, .f32⟩ : BufTy).Contents (Elt F) :=
  Host.reduceAdd (val_main_v122 (F := F) x0 x1 x2 x3 x4 x5 x6 x7 x8 x9 x10 x11 x12) (val_main_cst_29 (F := F)) reducesTo_S128x128_S128_d1 h_S_

abbrev idx_main_v123 (i : S128.Idx) (k : Fin 128) : S128x128.Idx := fun a => match a with
  | ⟨0, _⟩ => ⟨(i 0).val, (i 0).isLt⟩
  | ⟨1, _⟩ => ⟨k.val, k.isLt⟩

theorem val_main_v123_apply (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 x4 x5 x6 : (⟨S128x128, .f32⟩ : BufTy).Contents (Elt Ideal)) (x7 : (⟨S128x256, .f32⟩ : BufTy).Contents (Elt Ideal)) (x8 : (⟨S128, .f32⟩ : BufTy).Contents (Elt Ideal)) (x9 : (⟨S128x256, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (i : S128.Idx) :
    val_main_v123 (F := Ideal) x0 x1 x2 x3 x4 x5 x6 x7 x8 x9 x10 x11 x12 i = (val_main_cst_29 (F := Ideal)) (Shape.Idx.first h_S_) + ∑ k : Fin 128, (val_main_v122 (F := Ideal) x0 x1 x2 x3 x4 x5 x6 x7 x8 x9 x10 x11 x12) (idx_main_v123 i k) := by
  unfold val_main_v123
  generalize val_main_v122 (F := Ideal) x0 x1 x2 x3 x4 x5 x6 x7 x8 x9 x10 x11 x12 = y0
  simp only [Host.reduceAdd, Ideal.hostReduceAdd_def]
  rw [Ideal.hostReduceAdd_single reducesTo_S128x128_S128_d1 (by decide)]
  refine congrArg (_ + ·) (Finset.sum_congr rfl fun k _ => ?_)
  exact congrArg y0 (funext fun a => Fin.ext (by match a with | ⟨0, _⟩ => rfl | ⟨1, _⟩ => rfl))

def val_main_v124 : (⟨S128x1, .f32⟩ : BufTy).Contents (Elt F) :=
  broadcastInDim S128x1 ![0] bcast_S128_S128x1_0 (val_main_v123 (F := F) x0 x1 x2 x3 x4 x5 x6 x7 x8 x9 x10 x11 x12)

abbrev idx_main_v124 (i : S128x1.Idx) : S128.Idx := fun a => match a with
  | ⟨0, _⟩ => ⟨(i 0).val, (i 0).isLt⟩

theorem val_main_v124_apply (i : S128x1.Idx) :
    val_main_v124 (F := F) x0 x1 x2 x3 x4 x5 x6 x7 x8 x9 x10 x11 x12 i = val_main_v123 (F := F) x0 x1 x2 x3 x4 x5 x6 x7 x8 x9 x10 x11 x12 (idx_main_v124 i) := by
  unfold val_main_v124
  generalize val_main_v123 (F := F) x0 x1 x2 x3 x4 x5 x6 x7 x8 x9 x10 x11 x12 = y
  exact broadcastInDim_apply _ bcast_S128_S128x1_0 y i (idx_main_v124 i) (fun a => match a with
    | ⟨0, _⟩ => by show (i 0).val = if (128 : Nat) = 1 then 0 else (i 0).val; rw [if_neg (by decide)])

def val_main_v125 : (⟨S128x1, .f32⟩ : BufTy).Contents (Elt F) :=
  Host.sqrt (val_main_v124 (F := F) x0 x1 x2 x3 x4 x5 x6 x7 x8 x9 x10 x11 x12)

theorem val_main_v125_apply (i : S128x1.Idx) :
    val_main_v125 (F := F) x0 x1 x2 x3 x4 x5 x6 x7 x8 x9 x10 x11 x12 i = FloatOps.hostUnary .sqrt (val_main_v124 (F := F) x0 x1 x2 x3 x4 x5 x6 x7 x8 x9 x10 x11 x12 i) := rfl

def val_main_cst_30 : (⟨S_, .f32⟩ : BufTy).Contents (Elt F) :=
  constant S_ .f32 0x2B8CBCCC#32

theorem val_main_cst_30_apply (i : S_.Idx) :
    val_main_cst_30 (F := F) i = FloatOps.ofBits .f32 0x2B8CBCCC#32 := rfl

def val_main_v126 : (⟨S128x1, .f32⟩ : BufTy).Contents (Elt F) :=
  broadcastInDim S128x1 ![] bcast_S_S128x1 (val_main_cst_30 (F := F))

abbrev idx_main_v126 (i : S128x1.Idx) : S_.Idx := fun a => a.elim0

theorem val_main_v126_apply (i : S128x1.Idx) :
    val_main_v126 (F := F) i = val_main_cst_30 (F := F) (idx_main_v126 i) := by
  unfold val_main_v126
  generalize val_main_cst_30 (F := F) = y
  exact broadcastInDim_apply _ bcast_S_S128x1 y i (idx_main_v126 i) (fun a => a.elim0)

def val_main_v127 : (⟨S128x1, .f32⟩ : BufTy).Contents (Elt F) :=
  maximumf (val_main_v125 (F := F) x0 x1 x2 x3 x4 x5 x6 x7 x8 x9 x10 x11 x12) (val_main_v126 (F := F))

theorem val_main_v127_apply (i : S128x1.Idx) :
    val_main_v127 (F := F) x0 x1 x2 x3 x4 x5 x6 x7 x8 x9 x10 x11 x12 i = FloatOps.maximumf (val_main_v125 (F := F) x0 x1 x2 x3 x4 x5 x6 x7 x8 x9 x10 x11 x12 i) (val_main_v126 (F := F) i) := rfl

def val_main_v128 : (⟨S128x128, .f32⟩ : BufTy).Contents (Elt F) :=
  broadcastInDim S128x128 ![0, 1] bcast_S128x1_S128x128_0_1 (val_main_v127 (F := F) x0 x1 x2 x3 x4 x5 x6 x7 x8 x9 x10 x11 x12)

abbrev idx_main_v128 (i : S128x128.Idx) : S128x1.Idx := fun a => match a with
  | ⟨0, _⟩ => ⟨(i 0).val, (i 0).isLt⟩
  | ⟨1, _⟩ => ⟨0, Nat.one_pos⟩

theorem val_main_v128_apply (i : S128x128.Idx) :
    val_main_v128 (F := F) x0 x1 x2 x3 x4 x5 x6 x7 x8 x9 x10 x11 x12 i = val_main_v127 (F := F) x0 x1 x2 x3 x4 x5 x6 x7 x8 x9 x10 x11 x12 (idx_main_v128 i) := by
  unfold val_main_v128
  generalize val_main_v127 (F := F) x0 x1 x2 x3 x4 x5 x6 x7 x8 x9 x10 x11 x12 = y
  exact broadcastInDim_apply _ bcast_S128x1_S128x128_0_1 y i (idx_main_v128 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v129 : (⟨S128x128, .f32⟩ : BufTy).Contents (Elt F) :=
  Host.divf (val_main_v121 (F := F) x0 x1 x2 x3 x4 x5 x6 x7 x8 x9 x10 x11 x12) (val_main_v128 (F := F) x0 x1 x2 x3 x4 x5 x6 x7 x8 x9 x10 x11 x12)

theorem val_main_v129_apply (i : S128x128.Idx) :
    val_main_v129 (F := F) x0 x1 x2 x3 x4 x5 x6 x7 x8 x9 x10 x11 x12 i = FloatOps.hostDivf (val_main_v121 (F := F) x0 x1 x2 x3 x4 x5 x6 x7 x8 x9 x10 x11 x12 i) (val_main_v128 (F := F) x0 x1 x2 x3 x4 x5 x6 x7 x8 x9 x10 x11 x12 i) := rfl

end Cert.ReferenceIdeal.ReadP

end
-- ==== Proof.KI.BridgeA0.lean ====
import proofs.«425038_j72541997629469_1_alg».proof.Proof.Gen.KernelIdeal.Regions
import proofs.«425038_j72541997629469_1_alg».proof.Proof.RefRead
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

theorem st0_v1 : StableHlo.after (hostOps0 (F := F)) W (Proc.devRef .tc main_v1)
    = Cert.ReferenceIdeal.ReadP.val_main_v1 (F := F) (W (Proc.devRef .tc main_arg1)) := by
  after_results_simp <;> rfl
theorem st0_v3 : StableHlo.after (hostOps0 (F := F)) W (Proc.devRef .tc main_v3)
    = Cert.ReferenceIdeal.ReadP.val_main_v3 (F := F) (W (Proc.devRef .tc main_arg1)) := by
  after_results_simp <;> rfl
theorem st0_v4 : StableHlo.after (hostOps0 (F := F)) W (Proc.devRef .tc main_v4)
    = (shapeCast S50000x1 (W (Proc.devRef .tc main_arg2)) shapeCasts_S50000_S50000x1 : (⟨S50000x1, .i32⟩ : BufTy).Contents (Elt F)) := by
  after_results_simp <;> rfl
theorem st0_v5 : StableHlo.after (hostOps0 (F := F)) W (Proc.devRef .tc main_v5)
    = (truncf .bf16 (W (Proc.devRef .tc main_arg3)) bitsLt_bf16_f32 : (⟨S128x128, .bf16⟩ : BufTy).Contents (Elt F)) := by
  after_results_simp <;> rfl
theorem st0_v6 : StableHlo.after (hostOps0 (F := F)) W (Proc.devRef .tc main_v6)
    = (truncf .bf16 (W (Proc.devRef .tc main_arg4)) bitsLt_bf16_f32 : (⟨S128x128, .bf16⟩ : BufTy).Contents (Elt F)) := by
  after_results_simp <;> rfl
theorem st0_v7 : StableHlo.after (hostOps0 (F := F)) W (Proc.devRef .tc main_v7)
    = (truncf .bf16 (W (Proc.devRef .tc main_arg5)) bitsLt_bf16_f32 : (⟨S128x128, .bf16⟩ : BufTy).Contents (Elt F)) := by
  after_results_simp <;> rfl
theorem st0_v8 : StableHlo.after (hostOps0 (F := F)) W (Proc.devRef .tc main_v8)
    = (truncf .bf16 (W (Proc.devRef .tc main_arg6)) bitsLt_bf16_f32 : (⟨S128x128, .bf16⟩ : BufTy).Contents (Elt F)) := by
  after_results_simp <;> rfl
theorem st0_v9 : StableHlo.after (hostOps0 (F := F)) W (Proc.devRef .tc main_v9)
    = (truncf .bf16 (W (Proc.devRef .tc main_arg7)) bitsLt_bf16_f32 : (⟨S128x256, .bf16⟩ : BufTy).Contents (Elt F)) := by
  after_results_simp <;> rfl
theorem st0_v10 : StableHlo.after (hostOps0 (F := F)) W (Proc.devRef .tc main_v10)
    = (truncf .bf16 (W (Proc.devRef .tc main_arg9)) bitsLt_bf16_f32 : (⟨S128x256, .bf16⟩ : BufTy).Contents (Elt F)) := by
  after_results_simp <;> rfl
theorem st0_v11 : StableHlo.after (hostOps0 (F := F)) W (Proc.devRef .tc main_v11)
    = (truncf .bf16 (W (Proc.devRef .tc main_arg11)) bitsLt_bf16_f32 : (⟨S128x128, .bf16⟩ : BufTy).Contents (Elt F)) := by
  after_results_simp <;> rfl

end Cert.KernelIdeal.Hand

end
-- ==== Proof.KI.BridgeA.lean ====
import proofs.«425038_j72541997629469_1_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

def srcIdx (v1 : (⟨S600000, .i32⟩ : BufTy).Contents (Elt F)) : (⟨S600000x1, .i32⟩ : BufTy).Contents (Elt F) :=
  broadcastInDim S600000x1 ![0] bcast_S600000_S600000x1_0
    (select (cmpi CmpIPredicate.slt v1 (broadcastInDim S600000 ![] bcast_S_S600000 (constantI S_ 32 0#32)))
      (addi v1 (broadcastInDim S600000 ![] bcast_S_S600000 (constantI S_ 32 50000#32))) v1)

def dstIdx (v3 : (⟨S600000, .i32⟩ : BufTy).Contents (Elt F)) : (⟨S600000x1, .i32⟩ : BufTy).Contents (Elt F) :=
  broadcastInDim S600000x1 ![0] bcast_S600000_S600000x1_0 v3

def msumK (X : (⟨S50000x128, .f32⟩ : BufTy).Contents (Elt F)) (v1 v3 : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ FTy.f32 0#32)) (dstIdx v3)
    (Host.gather gather_S50000x128_S600000x1_S600000x128_1_0_n_n_0_1_1128 X (srcIdx v1))

def cmaxK (v3 : (⟨S600000, .i32⟩ : BufTy).Contents (Elt F)) : (⟨S50000, .f32⟩ : BufTy).Contents (Elt F) :=
  maximumf
    (Host.scatterAdd scatter_S50000_S600000x1_S600000_n_0_0_1
      (broadcastInDim S50000 ![] bcast_S_S50000 (constant S_ FTy.f32 0#32)) (dstIdx v3)
      (broadcastInDim S600000 ![] bcast_S_S600000 (constant S_ FTy.f32 1065353216#32)))
    (broadcastInDim S50000 ![] bcast_S_S50000 (constant S_ FTy.f32 1065353216#32))

def cinvK (v3 : (⟨S600000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ FTy.f32 1065353216#32)) (cmaxK v3))

def scaleK (S : (⟨S50000x128, .f32⟩ : BufTy).Contents (Elt F)) (col : (⟨S50000x1, .f32⟩ : BufTy).Contents (Elt F)) :
    (⟨S50000x128, .f32⟩ : BufTy).Contents (Elt F) :=
  mulf S (broadcastInDim S50000x128 ![0, 1] bcast_S50000x1_S50000x128_0_1 col)

variable (W : Valuation τ sig (Elt F))

set_option maxHeartbeats 4000000 in

theorem st1_v33 : StableHlo.after (hostOps1 (F := F)) W (Proc.devRef .tc main_v33)
    = scaleK (msumK (W (Proc.devRef .tc main_v12)) (W (Proc.devRef .tc main_v1)) (W (Proc.devRef .tc main_v3))) (cinvK (W (Proc.devRef .tc main_v3))) := by
  after_results_simp; rfl

set_option maxHeartbeats 4000000 in

theorem st1_v21 : StableHlo.after (hostOps1 (F := F)) W (Proc.devRef .tc main_v21) = cinvK (W (Proc.devRef .tc main_v3)) := by
  after_results_simp; rfl

set_option maxHeartbeats 4000000 in

theorem st2_v46 : StableHlo.after (hostOps2 (F := F)) W (Proc.devRef .tc main_v46)
    = scaleK (msumK (W (Proc.devRef .tc main_v34)) (W (Proc.devRef .tc main_v1)) (W (Proc.devRef .tc main_v3))) (W (Proc.devRef .tc main_v21)) := by
  after_results_simp; rfl

end Cert.KernelIdeal.Hand

end
-- ==== Proof.Spec.lean ====
import Idealize.ShloMosaic.PureOps.Ideal
import Mathlib.Algebra.BigOperators.Fin

noncomputable section

namespace Cert.Spec

open Idealize.ShloMosaic

abbrev eps : EReal := Ideal.ofBits .f32 0x2B8CBCCC#32

abbrev slope : EReal := Ideal.ofBits .f32 0x3C23D70A#32

abbrev zero : EReal := Ideal.ofBits .f32 0x00000000#32

abbrev one : EReal := Ideal.ofBits .f32 0x3F800000#32

def leaky (v : EReal) : EReal := if Ideal.cmp .oge v zero = 1#1 then v else slope * v

def unitRow {n : ℕ} (s : Fin n → EReal) (j : Fin n) : EReal :=
  Ideal.div (s j) (max (Ideal.sqrt (∑ j' : Fin n, s j' * s j')) eps)

def rinv {n : ℕ} (row : Fin n → EReal) : EReal :=
  if Ideal.cmp .oeq (∑ j : Fin n, row j) zero = 1#1 then zero else Ideal.div one (∑ j : Fin n, row j)

def xpre {n : ℕ} (row : Fin n → EReal) (j : Fin n) : EReal := row j * rinv row

def sagePre (mrow xrow : Fin 128 → EReal) (wl wr : Fin 128 → Fin 128 → EReal) (j : Fin 128) : EReal :=
  (∑ k : Fin 128, mrow k * wl j k) + (∑ k : Fin 128, xrow k * wr j k)

def catRow (u xrow : Fin 128 → EReal) (k : Fin 256) : EReal :=
  if h : k.val < 128 then u ⟨k.val, h⟩ else xrow ⟨k.val - 128, by omega⟩

def rowSage (mrow xrow : Fin 128 → EReal) (wl wr : Fin 128 → Fin 128 → EReal) (fcw : Fin 128 → Fin 256 → EReal)
    (fcb : Fin 128 → EReal) (j : Fin 128) : EReal :=
  leaky ((∑ k : Fin 256, catRow (fun q => leaky (unitRow (sagePre mrow xrow wl wr) q)) xrow k * fcw j k) + fcb j)

def pooled {N : ℕ} (lab : Fin N → BitVec 32) (h : Fin N → Fin 128 → EReal) (g j : Fin 128) : EReal :=
  ∑ r : Fin N, if lab r = BitVec.ofNat 32 g.val then h r j else 0

def headPre (prow : Fin 128 → EReal) (w : Fin 128 → Fin 128 → EReal) (b : Fin 128 → EReal) (j : Fin 128) : EReal :=
  leaky ((∑ k : Fin 128, prow k * w j k) + b j)

def headRow (prow : Fin 128 → EReal) (w : Fin 128 → Fin 128 → EReal) (b : Fin 128 → EReal) (j : Fin 128) : EReal :=
  unitRow (headPre prow w b) j

end Cert.Spec

end
-- ==== Proof.KI.BridgeB.lean ====
import proofs.«425038_j72541997629469_1_alg».proof.Proof.KI.BridgeA
import proofs.«425038_j72541997629469_1_alg».proof.Proof.RefRead
import proofs.«425038_j72541997629469_1_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Cert.ReferenceIdeal.ReadP

theorem one_word : Ideal.ofBits .f32 0x3F800000#32 = (1 : EReal) := by
  simp [Ideal.ofBits, Ideal.ieee]
  exact_mod_cast (by norm_num : (8388608 : ℝ) * ((2 : ℝ) ^ 23)⁻¹ = 1)

theorem mul_recip (a c : EReal) (hc : c ≠ 0) : a * Ideal.div 1 c = Ideal.div a c := by
  unfold Ideal.div
  rw [if_neg hc, if_neg hc, one_mul]

section
variable {F : FTy → Type} [FloatOps F]

def degK (v3 : (⟨S600000, .i32⟩ : BufTy).Contents (Elt F)) : (⟨S50000, .f32⟩ : BufTy).Contents (Elt F) :=
  Host.scatterAdd scatter_S50000_S600000x1_S600000_n_0_0_1
    (broadcastInDim S50000 ![] bcast_S_S50000 (constant S_ FTy.f32 0#32)) (dstIdx v3)
    (broadcastInDim S600000 ![] bcast_S_S600000 (constant S_ FTy.f32 1065353216#32))

def onesN : (⟨S50000, .f32⟩ : BufTy).Contents (Elt F) :=
  broadcastInDim S50000 ![] bcast_S_S50000 (constant S_ FTy.f32 1065353216#32)

theorem bcastCol_apply (col : (⟨S50000x1, .f32⟩ : BufTy).Contents (Elt F)) (r : Fin 50000) (k : Fin 128) :
    broadcastInDim S50000x128 ![0, 1] bcast_S50000x1_S50000x128_0_1 col (ix2 r k) = col (ix2 r (0 : Fin 1)) :=
  broadcastInDim_apply _ bcast_S50000x1_S50000x128_0_1 col (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

theorem bcastVec_apply (y : (⟨S50000, .f32⟩ : BufTy).Contents (Elt F)) (r : Fin 50000) :
    broadcastInDim S50000x1 ![0] bcast_S50000_S50000x1_0 y (ix2 r (0 : Fin 1)) = y (ix1 r) :=
  broadcastInDim_apply _ bcast_S50000_S50000x1_0 y (ix2 r (0 : Fin 1)) (ix1 r) (fun a => match a with
    | ⟨0, _⟩ => by show r.val = if (50000 : Nat) = 1 then 0 else r.val; rw [if_neg (by decide)])

end

theorem onesN_apply (r : Fin 50000) : onesN (F := Ideal) (ix1 r) = (1 : EReal) :=
  (broadcastInDim_apply _ bcast_S_S50000 (constant (F := Ideal) S_ FTy.f32 1065353216#32) (ix1 r) ix0 (fun a => a.elim0)).trans one_word

theorem cmax_ne_zero (v3 : (⟨S600000, .i32⟩ : BufTy).Contents (Elt Ideal)) (r : Fin 50000) : cmaxK (F := Ideal) v3 (ix1 r) ≠ 0 := by
  show max (degK v3 (ix1 r)) (onesN (F := Ideal) (ix1 r)) ≠ 0
  rw [onesN_apply]; exact ne_of_gt (lt_of_lt_of_le zero_lt_one (le_max_right _ _))

theorem cinv_apply (v3 : (⟨S600000, .i32⟩ : BufTy).Contents (Elt Ideal)) (r : Fin 50000) :
    cinvK (F := Ideal) v3 (ix2 r (0 : Fin 1)) = Ideal.div 1 (cmaxK (F := Ideal) v3 (ix1 r)) := by
  refine (bcastVec_apply (F := Ideal) (Host.divf onesN (cmaxK v3)) r).trans ?_
  show FloatOps.hostDivf (onesN (F := Ideal) (ix1 r)) (cmaxK v3 (ix1 r)) = _
  rw [onesN_apply]
  rfl

theorem scale_apply (S : (⟨S50000x128, .f32⟩ : BufTy).Contents (Elt Ideal)) (col : (⟨S50000x1, .f32⟩ : BufTy).Contents (Elt Ideal))
    (r : Fin 50000) (k : Fin 128) : scaleK (F := Ideal) S col (ix2 r k) = S (ix2 r k) * col (ix2 r (0 : Fin 1)) := by
  show S (ix2 r k) * broadcastInDim S50000x128 ![0, 1] bcast_S50000x1_S50000x128_0_1 col (ix2 r k) = _
  exact congrArg (fun t => S (ix2 r k) * t) (bcastCol_apply (F := Ideal) col r k)

theorem ref_div1_apply (x1 : (⟨Cert.ReferenceIdeal.S2x600000, .i32⟩ : BufTy).Contents (Elt Ideal)) (r : Fin 50000) (k : Fin 128) :
    val_main_v30 (F := Ideal) x1 (ix2 r k) = val_main_v28 (F := Ideal) x1 (ix1 r) := by
  rw [val_main_v30_apply, val_main_v29_apply]
  exact congrArg _ (funext fun a => match a with | ⟨0, _⟩ => rfl)
theorem ref_div2_apply (x1 : (⟨Cert.ReferenceIdeal.S2x600000, .i32⟩ : BufTy).Contents (Elt Ideal)) (r : Fin 50000) (k : Fin 128) :
    val_main_v78 (F := Ideal) x1 (ix2 r k) = val_main_v76 (F := Ideal) x1 (ix1 r) := by
  rw [val_main_v78_apply, val_main_v77_apply]
  exact congrArg _ (funext fun a => match a with | ⟨0, _⟩ => rfl)

theorem mean1_apply (x0 : (⟨Cert.ReferenceIdeal.S50000x128, .f32⟩ : BufTy).Contents (Elt Ideal)) (x1 : (⟨Cert.ReferenceIdeal.S2x600000, .i32⟩ : BufTy).Contents (Elt Ideal))
    (r : Fin 50000) (k : Fin 128) :
    scaleK (F := Ideal) (msumK (val_main_v12 x0) (val_main_v1 x1) (val_main_v3 x1)) (cinvK (val_main_v3 x1)) (ix2 r k)
      = val_main_v31 (F := Ideal) x0 x1 (ix2 r k) := by
  rw [scale_apply, cinv_apply, mul_recip _ _ (cmax_ne_zero _ r), val_main_v31_apply, ref_div1_apply]
  rfl

theorem mean2_apply (x0 : (⟨Cert.ReferenceIdeal.S50000x128, .f32⟩ : BufTy).Contents (Elt Ideal)) (x1 : (⟨Cert.ReferenceIdeal.S2x600000, .i32⟩ : BufTy).Contents (Elt Ideal))
    (x3 x4 : (⟨Cert.ReferenceIdeal.S128x128, .f32⟩ : BufTy).Contents (Elt Ideal)) (x7 : (⟨Cert.ReferenceIdeal.S128x256, .f32⟩ : BufTy).Contents (Elt Ideal)) (x8 : (⟨Cert.ReferenceIdeal.S128, .f32⟩ : BufTy).Contents (Elt Ideal))
    (r : Fin 50000) (k : Fin 128) :
    scaleK (F := Ideal) (msumK (val_main_v60 x0 x1 x3 x4 x7 x8) (val_main_v1 x1) (val_main_v3 x1)) (cinvK (val_main_v3 x1)) (ix2 r k)
      = val_main_v79 (F := Ideal) x0 x1 x3 x4 x7 x8 (ix2 r k) := by
  rw [scale_apply, cinv_apply, mul_recip _ _ (cmax_ne_zero _ r), val_main_v79_apply, ref_div2_apply]
  rfl

end Cert.KernelIdeal.Hand

end
-- ==== Proof.Val0.lean ====
import proofs.«425038_j72541997629469_1_alg».proof.Proof.Spec
import proofs.«425038_j72541997629469_1_alg».proof.Proof.KI.R0Defs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Hand Idealize.ShloMosaic Idealize.ShloMosaic.ValueIdx
  Idealize.ShloMosaic.TcCoe Idealize.SL.Sem

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowSum_apply (v0 : Vec Ideal S2000x128 .f32) (h : S2000x128.Reduces [1] S2000) (hφ : FKind.Formats .f32)
    (hacc : (0x00000000#32 : BitVec 32) = FKind.add.neutral .f32 hφ) (p : Fin 2000) :
    multiReduction (F := Ideal) .add [1] S2000 v0 0x00000000#32 h hφ hacc (ix1 p) = ∑ k : Fin 128, v0 (ix2 p k) := by
  refine (Ideal.multiReduction_add_single v0 0x00000000#32 h hφ hacc (ix1 p)).trans ?_
  refine Finset.sum_congr rfl fun k _ => congrArg v0 ?_
  funext a
  match a with
  | ⟨0, _⟩ => rfl
  | ⟨1, _⟩ => rfl

theorem transposedRhs_lhs_0 {M K N : ℕ} (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_rhs_0 {M K N : ℕ} (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- A product whose right operand is contracted on its last axis, into the zero accumulator: row `p` against row `q`. -/
theorem matmulT_apply {M K N : ℕ} {φ₁ φ₂ : FTy} (a : FVec Ideal ⟨2, ![M, K]⟩ φ₁) (w : FVec Ideal ⟨2, ![N, K]⟩ φ₂)
    (p : Fin M) (q : Fin N) :
    matmul (DotDims.transposedRhs M K N) none a w (constant (F := Ideal) ⟨2, ![M, N]⟩ .f32 0x00000000#32) (ix2 p q)
      = ∑ k : Fin K, a (ix2 p k) * w (ix2 q k) := by
  refine (Ideal.matmul_constant_zero_apply (DotDims.transposedRhs M K N) none a w (ix2 p q)).trans ?_
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k) = ix2 p k :=
    funext fun c => Fin.ext (by
      match c with
      | ⟨0, _⟩ => exact transposedRhs_lhs_0 _ _
      | ⟨1, _⟩ => exact ((DotDims.transposedRhs M K N).lhsIdx_val_of_single rfl _ _).trans hk)
  have er : (DotDims.transposedRhs M K N).rhsIdx (ix2 p q) ((ValueIdx.contrEquiv1 (DotDims.transposedRhs M K N) K rfl rfl).symm k) = ix2 q k :=
    funext fun c => Fin.ext (by
      match c with
      | ⟨0, _⟩ => exact transposedRhs_rhs_0 _ _
      | ⟨1, _⟩ => exact ((DotDims.transposedRhs M K N).rhsIdx_val_of_single rfl _ _).trans hk)
  rw [el, er]

theorem pay0_apply (v0 : Vec Ideal S2000x128 .f32) (p : Fin 2000) (q : Fin 128) :
    k0_pay1 (F := Ideal) v0 (ix2 p q) = Cert.Spec.xpre (fun j => v0 (ix2 p j)) q := by
  unfold k0_pay1
  refine (mulf_apply _ _ _).trans ?_
  refine congrArg (v0 (ix2 p q) * ·) ?_
  refine (broadcastTo_a1_ab_apply _ _ p q).trans ?_
  have e : shapeCast S2000x1 (multiReduction (F := Ideal) .add [1] S2000 v0 0x00000000#32 reduces_S2000x128_S2000 (.inl rfl) rfl)
      shapeCasts_S2000_S2000x1 (ix2 p (0 : Fin 1)) = ∑ k : Fin 128, v0 (ix2 p k) :=
    (shapeCast_a_a1_apply _ _ p 0).trans (rowSum_apply v0 _ _ _ p)
  show Scalar.select (Ideal.cmp .oeq (shapeCast S2000x1 _ shapeCasts_S2000_S2000x1 (ix2 p (0 : Fin 1))) (Ideal.ofBits .f32 0x00000000#32))
      (Ideal.ofBits .f32 0x00000000#32)
      (Ideal.div (Ideal.ofBits .f32 0x3F800000#32) (shapeCast S2000x1 _ shapeCasts_S2000_S2000x1 (ix2 p (0 : Fin 1)))) = _
  rw [e]
  rfl

variable (V : (c : Dev nD) → (b : Ref sig .tc) → Buf (Elt Ideal) ((c : Thread nD τ).loc b))

theorem offsets_zero : (![0, 0] : Fin 2 → Nat) = fun _ => 0 := funext fun a => by fin_cases a <;> rfl

abbrev normalised (X : S50000x128.Idx → EReal) : S50000x128.Idx → EReal :=
  fun i => Cert.Spec.xpre (fun j' => X (ix2 (i 0 : Fin 50000) j')) (i 1 : Fin 128)

theorem blockIndex0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem block_normalised (X : S50000x128.Idx → EReal) (T : ℕ) (x0 : Vec Ideal S2000x128 .f32)
    (hx : ∀ (p : Fin 2000) (q : Fin 128) (r : Fin 50000), r.val = T * 2000 + p.val → x0 (ix2 p q) = X (ix2 r q))
    (y : S2000x128.Idx) (i : S50000x128.Idx) (hi0 : (i 0).val = T * 2000 + (y 0).val) (hi1 : (i 1).val = (y 1).val) :
    k0_pay1 (F := Ideal) x0 y = normalised X i := by
  obtain ⟨p, q, rfl⟩ : ∃ (p : Fin 2000) (q : Fin 128), y = ix2 p q := ⟨y 0, y 1, eq_ix2 y⟩
  obtain ⟨r, j, rfl⟩ : ∃ (r : Fin 50000) (j : Fin 128), i = ix2 r j := ⟨i 0, i 1, eq_ix2 i⟩
  have hr : r.val = T * 2000 + p.val := hi0
  obtain rfl : j = q := Fin.ext hi1
  refine (pay0_apply x0 p j).trans ?_
  show Cert.Spec.xpre (fun j' => x0 (ix2 p j')) j = Cert.Spec.xpre (fun j' => X (ix2 r j')) j
  exact congrArg (fun row => Cert.Spec.xpre row j) (funext fun j' => hx p j' r hr)

theorem flushed0_eq (c : Dev nD) (t : Fin cfg0.N) :
    (dat0 (F := Ideal) V c).flushed 1 t
      = ((cfg0.win 1).blk t).view.read (Elt Ideal) (normalised (V c main_arg0)) := by
  show (cfg0.win 1).cut (grid0.coords t) ((dat0 (F := Ideal) V c).after 1 t) = _
  rw [after0_1]
  unfold out0_1
  rw [View.canon_unit_zero offsets_zero]
  simp only [View.ld_unit_zero (S := S2000x128) offsets_zero]
  obtain ⟨e0, e1, e2, e3⟩ := blockIndex0 t
  funext y
  show k0_pay1 (F := Ideal) (iblk0 V c 0 t) y = normalised (V c main_arg0) (((cfg0.win 1).blk t).view.emb y)
  refine block_normalised (V c main_arg0) t.val (iblk0 V c 0 t) (fun p q r hr => ?_) y _ ?_ ?_
  · exact congrArg (V c main_arg0) (Shape.idx_ext₂
      (show win0_0.index t (0 : Fin 2) * 2000 + 1 * p.val = r.val by omega)
      (show win0_0.index t (1 : Fin 2) * 128 + 1 * q.val = q.val by omega))
  · show win0_1.index t (0 : Fin 2) * 2000 + 1 * (y 0).val = t.val * 2000 + (y 0).val; omega
  · show win0_1.index t (1 : Fin 2) * 128 + 1 * (y 1).val = (y 1).val; omega

theorem covered0 (i : S50000x128.Idx) :
    ∃ t : Fin cfg0.N, (cfg0.win 1).flush t = true ∧ i ∈ ((cfg0.win 1).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, e2, e3⟩ := blockIndex0 t
  refine ⟨t, flush0_1 t, ?_⟩
  show i ∈ ((View.whole main_v12).slice (win0_1.rect t)).set
  rw [View.set_slice_whole, Rect.mem_set_unit]
  intro a
  match a with
  | ⟨0, _⟩ => show win0_1.index t (0 : Fin 2) * 2000 ≤ (i 0).val ∧ (i 0).val < win0_1.index t (0 : Fin 2) * 2000 + 2000; omega
  | ⟨1, _⟩ => show win0_1.index t (1 : Fin 2) * 128 ≤ (i 1).val ∧ (i 1).val < win0_1.index t (1 : Fin 2) * 128 + 128; omega

theorem final0 (c : Dev nD) (r : Fin 50000) (j : Fin 128) :
    (dat0 (F := Ideal) V c).arrAt 1 cfg0.N (ix2 r j) = Cert.Spec.xpre (fun j' => V c main_arg0 (ix2 r j')) j :=
  congrFun ((dat0 (F := Ideal) V c).arrAt_eq_of_cover 1 (normalised (V c main_arg0)) (fun t _ => flushed0_eq V c t)
    covered0) (ix2 r j)

end Cert.KernelIdeal.Val

end
-- ==== Proof.Val1.lean ====
import proofs.«425038_j72541997629469_1_alg».proof.Proof.Val0
import proofs.«425038_j72541997629469_1_alg».proof.Proof.KI.R1Defs

noncomputable section

namespace Cert.KernelIdeal.Val

open Cert.KernelIdeal Cert.KernelIdeal.Gen Cert.KernelIdeal.Hand
open Idealize.ShloMosaic Idealize.ShloMosaic.ValueIdx Idealize.ShloMosaic.TcCoe Idealize.SL.Sem

namespace Sage1

theorem sageDot_apply (a : FVec Ideal S2000x128 .bf16) (w : FVec Ideal S128x128 .bf16) (p : Fin 2000) (q : Fin 128) :
    matmul dot_S2000x128_S128x128_S2000x128_1_1_0_0_n_n none a w (constant (F := Ideal) S2000x128 .f32 0x00000000#32) (ix2 p q)
      = ∑ k : Fin 128, a (ix2 p k) * w (ix2 q k) := matmulT_apply a w p q

theorem denseDot_apply (a : FVec Ideal S2000x256 .bf16) (w : FVec Ideal S128x256 .bf16) (p : Fin 2000) (q : Fin 128) :
    matmul dot_S2000x256_S128x256_S2000x128_1_1_0_0_n_n none a w (constant (F := Ideal) S2000x128 .f32 0x00000000#32) (ix2 p q)
      = ∑ k : Fin 256, a (ix2 p k) * w (ix2 q k) := matmulT_apply a w p q

theorem cat_apply (u x : FVec Ideal S2000x128 .f32) (p : Fin 2000) (k : Fin 256) :
    concatenate S2000x256 1 [⟨S2000x128, u⟩, ⟨S2000x128, x⟩] concatenates_S2000x128_S2000x128_S2000x256_d1 (ix2 p k)
      = Cert.Spec.catRow (fun j => u (ix2 p j)) (fun j => x (ix2 p j)) k := by
  unfold Cert.Spec.catRow
  split
  · next h =>
    exact concatenate_pair_apply_left 1 u x concatenates_S2000x128_S2000x128_S2000x256_d1 (ix2 p k) rfl (ix2 p ⟨k.val, h⟩)
      (fun b => match b with | ⟨0, _⟩ => rfl | ⟨1, _⟩ => rfl)
  · next h =>
    exact concatenate_pair_apply_right 1 u x concatenates_S2000x128_S2000x128_S2000x256_d1 (ix2 p k) rfl rfl
      (ix2 p ⟨k.val - 128, by have := k.isLt; omega⟩)
      (fun b hb => match b, hb with | ⟨0, _⟩, _ => rfl | ⟨1, _⟩, hb => absurd rfl hb)
      (by show k.val - 128 + 128 = k.val; omega)

def sagePreBlk (v0 v2 : FVec Ideal S2000x128 .f32) (v4 v6 : FVec Ideal S128x128 .bf16) : FVec Ideal S2000x128 .f32 :=
  addf
    (matmul dot_S2000x128_S128x128_S2000x128_1_1_0_0_n_n none
      (truncf .bf16 (shapeCast S2000x128 v0 shapeCasts_S2000x128_S2000x128) bitsLt_bf16_f32)
      (shapeCast S128x128 v4 shapeCasts_S128x128_S128x128) (constant S2000x128 .f32 0x00000000#32))
    (matmul dot_S2000x128_S128x128_S2000x128_1_1_0_0_n_n none
      (truncf .bf16 (shapeCast S2000x128 v2 shapeCasts_S2000x128_S2000x128) bitsLt_bf16_f32)
      (shapeCast S128x128 v6 shapeCasts_S128x128_S128x128) (constant S2000x128 .f32 0x00000000#32))

def unitBlk (x : FVec Ideal S2000x128 .f32) : FVec Ideal S2000x128 .f32 :=
  divf x (broadcastTo S2000x128
    (maximumf
      (sqrt (shapeCast S2000x1 (multiReduction .add [1] S2000 (mulf x x) 0x00000000#32 reduces_S2000x128_S2000 (.inl rfl) rfl)
        shapeCasts_S2000_S2000x1))
      (broadcast S2000x1 (Scalar.ofBits .f32 0x2B8CBCCC#32)))
    broadcasts_S2000x1_S2000x128)

def leakyBlk (x : FVec Ideal S2000x128 .f32) : FVec Ideal S2000x128 .f32 :=
  select (cmpf .oge x (broadcast S2000x128 (Scalar.ofBits .f32 0x00000000#32))) x
    (mulf (broadcast S2000x128 (Scalar.ofBits .f32 0x3C23D70A#32)) x)

def denseBlk (u x : FVec Ideal S2000x128 .f32) (v28 : FVec Ideal S128x256 .bf16) (v30 : FVec Ideal S128 .f32) :
    FVec Ideal S2000x128 .f32 :=
  addf
    (matmul dot_S2000x256_S128x256_S2000x128_1_1_0_0_n_n none
      (truncf .bf16 (concatenate S2000x256 1 [⟨S2000x128, u⟩, ⟨S2000x128, x⟩] concatenates_S2000x128_S2000x128_S2000x256_d1) bitsLt_bf16_f32)
      (shapeCast S128x256 v28 shapeCasts_S128x256_S128x256) (constant S2000x128 .f32 0x00000000#32))
    (broadcastTo S2000x128 (shapeCast S1x128 v30 shapeCasts_S128_S1x128) broadcasts_S1x128_S2000x128)

theorem preact_eq (v0 v2 : Vec Ideal S2000x128 .f32) (v4 v6 : Vec Ideal S128x128 .bf16) (v28 : Vec Ideal S128x256 .bf16)
    (v30 : Vec Ideal S128 .f32) :
    k1_pay2 (F := Ideal) v0 v2 v4 v6 v28 v30
      = denseBlk (leakyBlk (unitBlk (sagePreBlk v0 v2 v4 v6))) (shapeCast S2000x128 v2 shapeCasts_S2000x128_S2000x128) v28 v30 := rfl

theorem stored_eq (v0 v2 : Vec Ideal S2000x128 .f32) (v4 v6 : Vec Ideal S128x128 .bf16) (v28 : Vec Ideal S128x256 .bf16)
    (v30 : Vec Ideal S128 .f32) :
    k1_pay1 (F := Ideal) (k1_pay2 v0 v2 v4 v6 v28 v30) (k1_pay3 v0 v2 v4 v6 v28 v30) (k1_pay4 v0 v2 v4 v6 v28 v30)
      = leakyBlk (k1_pay2 (F := Ideal) v0 v2 v4 v6 v28 v30) := rfl

theorem sagePreBlk_apply (v0 v2 : FVec Ideal S2000x128 .f32) (v4 v6 : FVec Ideal S128x128 .bf16) (p : Fin 2000) (q : Fin 128) :
    sagePreBlk v0 v2 v4 v6 (ix2 p q)
      = Cert.Spec.sagePre (fun k => v0 (ix2 p k)) (fun k => v2 (ix2 p k)) (fun j k => v4 (ix2 j k)) (fun j k => v6 (ix2 j k)) q := by
  unfold sagePreBlk Cert.Spec.sagePre
  rw [shapeCast_self, shapeCast_self, shapeCast_self, shapeCast_self]
  refine (addf_apply _ _ _).trans ?_
  rw [sageDot_apply, sageDot_apply]
  rfl

theorem unitBlk_apply (x : FVec Ideal S2000x128 .f32) (p : Fin 2000) (q : Fin 128) :
    unitBlk x (ix2 p q) = Cert.Spec.unitRow (fun k => x (ix2 p k)) q := by
  unfold unitBlk Cert.Spec.unitRow
  refine (divf_apply _ _ _).trans ?_
  rw [broadcastTo_a1_ab_apply]
  refine congrArg (Ideal.div (x (ix2 p q))) ?_
  refine (maximumf_apply _ _ _).trans ?_
  refine congrArg₂ max ?_ rfl
  show Ideal.sqrt (shapeCast S2000x1 _ shapeCasts_S2000_S2000x1 (ix2 p (0 : Fin 1))) = _
  rw [shapeCast_a_a1_apply]
  exact congrArg Ideal.sqrt (rowSum_apply _ _ _ _ p)

theorem leakyBlk_apply (x : FVec Ideal S2000x128 .f32) (i : S2000x128.Idx) :
    leakyBlk x i = Cert.Spec.leaky (x i) := rfl

theorem denseBlk_apply (u x : FVec Ideal S2000x128 .f32) (v28 : FVec Ideal S128x256 .bf16) (v30 : FVec Ideal S128 .f32)
    (p : Fin 2000) (q : Fin 128) :
    denseBlk u x v28 v30 (ix2 p q)
      = (∑ k : Fin 256, Cert.Spec.catRow (fun j => u (ix2 p j)) (fun j => x (ix2 p j)) k * v28 (ix2 q k)) + v30 (ix1 q) := by
  unfold denseBlk
  rw [shapeCast_self]
  refine (addf_apply _ _ _).trans ?_
  rw [denseDot_apply, broadcastTo_1b_ab_apply, shapeCast_a_1a_apply]
  refine congrArg (· + v30 (ix1 q)) (Finset.sum_congr rfl fun k _ => ?_)
  refine congrArg (· * v28 (ix2 q k)) ?_
  exact (truncf_apply (ψ := .bf16) _ bitsLt_bf16_f32 (ix2 p k)).trans (cat_apply u x p k)

end Sage1

open Sage1 in
theorem pay1_apply (v0 v2 : Vec Ideal S2000x128 .f32) (v4 v6 : Vec Ideal S128x128 .bf16) (v28 : Vec Ideal S128x256 .bf16)
    (v30 : Vec Ideal S128 .f32) (p : Fin 2000) (q : Fin 128) :
    k1_pay1 (F := Ideal) (k1_pay2 v0 v2 v4 v6 v28 v30) (k1_pay3 v0 v2 v4 v6 v28 v30) (k1_pay4 v0 v2 v4 v6 v28 v30) (ix2 p q)
      = Cert.Spec.rowSage (fun k => v0 (ix2 p k)) (fun k => v2 (ix2 p k)) (fun j k => v4 (ix2 j k)) (fun j k => v6 (ix2 j k))
          (fun j k => v28 (ix2 j k)) (fun j => v30 (ix1 j)) q := by
  rw [stored_eq, leakyBlk_apply, preact_eq, denseBlk_apply, shapeCast_self]
  unfold Cert.Spec.rowSage
  refine congrArg Cert.Spec.leaky (congrArg (· + v30 (ix1 q)) (Finset.sum_congr rfl fun k _ => ?_))
  refine congrArg (fun f => Cert.Spec.catRow f (fun j => v2 (ix2 p j)) k * v28 (ix2 q k)) ?_
  funext j
  rw [leakyBlk_apply, unitBlk_apply]
  refine congrArg Cert.Spec.leaky (congrArg (fun s => Cert.Spec.unitRow s j) ?_)
  funext k'
  exact sagePreBlk_apply v0 v2 v4 v6 p k'

variable (V : (c : Dev nD) → (b : Ref sig .tc) → Buf (Elt Ideal) ((c : Thread nD τ).loc b))

namespace Sage1

theorem stored_at (v0 v2 : Vec Ideal S2000x128 .f32) (v4 v6 : Vec Ideal S128x128 .bf16) (v28 : Vec Ideal S128x256 .bf16)
    (v30 : Vec Ideal S128 .f32) (y : S2000x128.Idx) :
    k1_pay1 (F := Ideal) (k1_pay2 v0 v2 v4 v6 v28 v30) (k1_pay3 v0 v2 v4 v6 v28 v30) (k1_pay4 v0 v2 v4 v6 v28 v30) y
      = Cert.Spec.rowSage (fun k => v0 (ix2 (⟨(y 0).val, idx2_lt0 y⟩ : Fin 2000) k)) (fun k => v2 (ix2 (⟨(y 0).val, idx2_lt0 y⟩ : Fin 2000) k))
          (fun j k => v4 (ix2 j k)) (fun j k => v6 (ix2 j k)) (fun j k => v28 (ix2 j k)) (fun j => v30 (ix1 j))
          (⟨(y 1).val, idx2_lt1 y⟩ : Fin 128) := by
  obtain ⟨p, q, rfl⟩ : ∃ (p : Fin 2000) (q : Fin 128), y = ix2 p q := ⟨y 0, y 1, eq_ix2 y⟩
  exact pay1_apply v0 v2 v4 v6 v28 v30 p q

theorem rowSage_congr {m m' x x' : Fin 128 → EReal} {wl wl' wr wr' : Fin 128 → Fin 128 → EReal}
    {fw fw' : Fin 128 → Fin 256 → EReal} {fb fb' : Fin 128 → EReal} {j j' : Fin 128}
    (h1 : m = m') (h2 : x = x') (h3 : wl = wl') (h4 : wr = wr') (h5 : fw = fw') (h6 : fb = fb') (h7 : j = j') :
    Cert.Spec.rowSage m x wl wr fw fb j = Cert.Spec.rowSage m' x' wl' wr' fw' fb' j' := by
  subst h1 h2 h3 h4 h5 h6 h7; rfl

theorem zero_offsets2 : (![0, 0] : Fin 2 → Nat) = fun _ => 0 := funext fun a => by fin_cases a <;> rfl
theorem zero_offsets1 : (![0] : Fin 1 → Nat) = fun _ => 0 := funext fun a => by fin_cases a <;> rfl

def sageArr (c : Dev nD) : S50000x128.Idx → EReal := fun i =>
  Cert.Spec.rowSage (fun k => V c main_v33 (ix2 (⟨(i 0).val, idx2_lt0 i⟩ : Fin 50000) k))
    (fun k => V c main_v12 (ix2 (⟨(i 0).val, idx2_lt0 i⟩ : Fin 50000) k))
    (fun j' k => V c main_v5 (ix2 j' k)) (fun j' k => V c main_v6 (ix2 j' k)) (fun j' k => V c main_v9 (ix2 j' k))
    (fun j' => V c main_arg8 (ix1 j')) (⟨(i 1).val, idx2_lt1 i⟩ : Fin 128)

theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (1 : Fin 2) = 0 :=
  (by decide +kernel : ∀ t : Fin grid1.N, _)

theorem index_onto : ∀ q0 : Fin 25, ∃ t : Fin cfg1.N, win1_6.index t = ![q0.val, 0] :=
  (by decide +kernel : ∀ q0 : Fin 25, ∃ t : Fin grid1.N, win1_6.index t = ![q0.val, 0])

theorem flushed_eq_block (c : Dev nD) (t : Fin cfg1.N) :
    (dat1 (F := Ideal) V c).flushed 6 t = ((cfg1.win 6).blk t).view.read (Elt Ideal) (sageArr V c) := by
  show (cfg1.win 6).cut (grid1.coords t) ((dat1 (F := Ideal) V c).after 6 t) = _
  rw [after1_6]
  unfold out1_6
  rw [View.canon_unit_zero zero_offsets2]
  simp only [View.ld_unit_zero (S := S2000x128) zero_offsets2, View.ld_unit_zero (S := S128x128) zero_offsets2,
    View.ld_unit_zero (S := S128x256) zero_offsets2, View.ld_unit_zero (S := S128) zero_offsets1]
  obtain ⟨e00, e01, e10, e11, e20, e21, e30, e31, e40, e41, e50, e61⟩ := index_facts t
  funext y
  refine (stored_at (iblk1 V c 0 t) (iblk1 V c 1 t) (iblk1 V c 2 t) (iblk1 V c 3 t) (iblk1 V c 4 t) (iblk1 V c 5 t)
    ((cfg1.win 6).xinj (grid1.coords t) y)).trans ?_
  show _ = sageArr V c (((cfg1.win 6).blk t).view.emb y)
  unfold sageArr
  refine rowSage_congr (funext fun k => ?_) (funext fun k => ?_) (funext fun j => funext fun k => ?_)
    (funext fun j => funext fun k => ?_) (funext fun j => funext fun k => ?_) (funext fun j => ?_) (Fin.ext ?_)
  · exact congrArg (V c main_v33) (Shape.idx_ext₂
      (show win1_0.index t (0 : Fin 2) * 2000 + 1 * (y 0).val = win1_6.index t (0 : Fin 2) * 2000 + 1 * (y 0).val by omega)
      (show win1_0.index t (1 : Fin 2) * 128 + 1 * k.val = k.val by omega))
  · exact congrArg (V c main_v12) (Shape.idx_ext₂
      (show win1_1.index t (0 : Fin 2) * 2000 + 1 * (y 0).val = win1_6.index t (0 : Fin 2) * 2000 + 1 * (y 0).val by omega)
      (show win1_1.index t (1 : Fin 2) * 128 + 1 * k.val = k.val by omega))
  · exact congrArg (V c main_v5) (Shape.idx_ext₂
      (show win1_2.index t (0 : Fin 2) * 128 + 1 * j.val = j.val by omega)
      (show win1_2.index t (1 : Fin 2) * 128 + 1 * k.val = k.val by omega))
  · exact congrArg (V c main_v6) (Shape.idx_ext₂
      (show win1_3.index t (0 : Fin 2) * 128 + 1 * j.val = j.val by omega)
      (show win1_3.index t (1 : Fin 2) * 128 + 1 * k.val = k.val by omega))
  · exact congrArg (V c main_v9) (Shape.idx_ext₂
      (show win1_4.index t (0 : Fin 2) * 128 + 1 * j.val = j.val by omega)
      (show win1_4.index t (1 : Fin 2) * 256 + 1 * k.val = k.val by omega))
  · exact congrArg (V c main_arg8) (funext fun a => Fin.ext (by
      match a with
      | ⟨0, _⟩ => show win1_5.index t (0 : Fin 1) * 128 + 1 * j.val = j.val; omega))
  · show (y 1).val = win1_6.index t (1 : Fin 2) * 128 + 1 * (y 1).val
    omega

theorem blocks_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := index_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  show i ∈ ((View.whole main_v34).slice (win1_6.rect t)).set
  rw [View.set_slice_whole, Rect.mem_set_unit]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

end Sage1

open Sage1 in
theorem final1 (c : Dev nD) (r : Fin 50000) (j : Fin 128) :
    (dat1 (F := Ideal) V c).arrAt 6 cfg1.N (ix2 r j)
      = Cert.Spec.rowSage (fun k => V c main_v33 (ix2 r k)) (fun k => V c main_v12 (ix2 r k)) (fun j' k => V c main_v5 (ix2 j' k))
          (fun j' k => V c main_v6 (ix2 j' k)) (fun j' k => V c main_v9 (ix2 j' k)) (fun j' => V c main_arg8 (ix1 j')) j :=
  (congrFun ((dat1 (F := Ideal) V c).arrAt_eq_of_cover 6 (sageArr V c) (fun t _ => flushed_eq_block V c t) blocks_cover) (ix2 r j)).trans rfl

end Cert.KernelIdeal.Val

end
-- ==== Proof.Val2.lean ====
import proofs.«425038_j72541997629469_1_alg».proof.Proof.Val1
import proofs.«425038_j72541997629469_1_alg».proof.Proof.KI.R2Defs

noncomputable section

namespace Cert.KernelIdeal.Val

open Cert.KernelIdeal Cert.KernelIdeal.Gen Cert.KernelIdeal.Hand
open Idealize.ShloMosaic Idealize.ShloMosaic.ValueIdx Idealize.ShloMosaic.TcCoe Idealize.SL.Sem

variable (V : (c : Dev nD) → (b : Ref sig .tc) → Buf (Elt Ideal) ((c : Thread nD τ).loc b))

namespace Sage2

open Sage1 (stored_at rowSage_congr zero_offsets1 zero_offsets2)

/-- Regions 1 and 2 have the same body, so the output block is the same function of the six input blocks. -/
theorem out2_6_eq : @out2_6 Ideal _ = @out1_6 Ideal _ := rfl

def sageArr (c : Dev nD) : S50000x128.Idx → EReal := fun i =>
  Cert.Spec.rowSage (fun k => V c main_v46 (ix2 (⟨(i 0).val, idx2_lt0 i⟩ : Fin 50000) k))
    (fun k => V c main_v34 (ix2 (⟨(i 0).val, idx2_lt0 i⟩ : Fin 50000) k))
    (fun j' k => V c main_v7 (ix2 j' k)) (fun j' k => V c main_v8 (ix2 j' k)) (fun j' k => V c main_v10 (ix2 j' k))
    (fun j' => V c main_arg10 (ix1 j')) (⟨(i 1).val, idx2_lt1 i⟩ : Fin 128)

theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (1 : Fin 2) = 0 :=
  (by decide +kernel : ∀ t : Fin grid2.N, _)

theorem index_onto : ∀ q0 : Fin 25, ∃ t : Fin cfg2.N, win2_6.index t = ![q0.val, 0] :=
  (by decide +kernel : ∀ q0 : Fin 25, ∃ t : Fin grid2.N, win2_6.index t = ![q0.val, 0])

theorem flushed_eq_block (c : Dev nD) (t : Fin cfg2.N) :
    (dat2 (F := Ideal) V c).flushed 6 t = ((cfg2.win 6).blk t).view.read (Elt Ideal) (sageArr V c) := by
  show (cfg2.win 6).cut (grid2.coords t) ((dat2 (F := Ideal) V c).after 6 t) = _
  rw [after2_6, out2_6_eq]
  unfold out1_6
  rw [View.canon_unit_zero zero_offsets2]
  simp only [View.ld_unit_zero (S := S2000x128) zero_offsets2, View.ld_unit_zero (S := S128x128) zero_offsets2,
    View.ld_unit_zero (S := S128x256) zero_offsets2, View.ld_unit_zero (S := S128) zero_offsets1]
  obtain ⟨e00, e01, e10, e11, e20, e21, e30, e31, e40, e41, e50, e61⟩ := index_facts t
  funext y
  refine (stored_at (iblk2 V c 0 t) (iblk2 V c 1 t) (iblk2 V c 2 t) (iblk2 V c 3 t) (iblk2 V c 4 t) (iblk2 V c 5 t)
    ((cfg2.win 6).xinj (grid2.coords t) y)).trans ?_
  show _ = sageArr V c (((cfg2.win 6).blk t).view.emb y)
  unfold sageArr
  refine rowSage_congr (funext fun k => ?_) (funext fun k => ?_) (funext fun j => funext fun k => ?_)
    (funext fun j => funext fun k => ?_) (funext fun j => funext fun k => ?_) (funext fun j => ?_) (Fin.ext ?_)
  · exact congrArg (V c main_v46) (Shape.idx_ext₂
      (show win2_0.index t (0 : Fin 2) * 2000 + 1 * (y 0).val = win2_6.index t (0 : Fin 2) * 2000 + 1 * (y 0).val by omega)
      (show win2_0.index t (1 : Fin 2) * 128 + 1 * k.val = k.val by omega))
  · exact congrArg (V c main_v34) (Shape.idx_ext₂
      (show win2_1.index t (0 : Fin 2) * 2000 + 1 * (y 0).val = win2_6.index t (0 : Fin 2) * 2000 + 1 * (y 0).val by omega)
      (show win2_1.index t (1 : Fin 2) * 128 + 1 * k.val = k.val by omega))
  · exact congrArg (V c main_v7) (Shape.idx_ext₂
      (show win2_2.index t (0 : Fin 2) * 128 + 1 * j.val = j.val by omega)
      (show win2_2.index t (1 : Fin 2) * 128 + 1 * k.val = k.val by omega))
  · exact congrArg (V c main_v8) (Shape.idx_ext₂
      (show win2_3.index t (0 : Fin 2) * 128 + 1 * j.val = j.val by omega)
      (show win2_3.index t (1 : Fin 2) * 128 + 1 * k.val = k.val by omega))
  · exact congrArg (V c main_v10) (Shape.idx_ext₂
      (show win2_4.index t (0 : Fin 2) * 128 + 1 * j.val = j.val by omega)
      (show win2_4.index t (1 : Fin 2) * 256 + 1 * k.val = k.val by omega))
  · exact congrArg (V c main_arg10) (funext fun a => Fin.ext (by
      match a with
      | ⟨0, _⟩ => show win2_5.index t (0 : Fin 1) * 128 + 1 * j.val = j.val; omega))
  · show (y 1).val = win2_6.index t (1 : Fin 2) * 128 + 1 * (y 1).val
    omega

theorem blocks_cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := index_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  show i ∈ ((View.whole main_v47).slice (win2_6.rect t)).set
  rw [View.set_slice_whole, Rect.mem_set_unit]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

end Sage2

open Sage2 in
theorem final2 (c : Dev nD) (r : Fin 50000) (j : Fin 128) :
    (dat2 (F := Ideal) V c).arrAt 6 cfg2.N (ix2 r j)
      = Cert.Spec.rowSage (fun k => V c main_v46 (ix2 r k)) (fun k => V c main_v34 (ix2 r k)) (fun j' k => V c main_v7 (ix2 j' k))
          (fun j' k => V c main_v8 (ix2 j' k)) (fun j' k => V c main_v10 (ix2 j' k)) (fun j' => V c main_arg10 (ix1 j')) j :=
  (congrFun ((dat2 (F := Ideal) V c).arrAt_eq_of_cover 6 (sageArr V c) (fun t _ => flushed_eq_block V c t) blocks_cover) (ix2 r j)).trans rfl

end Cert.KernelIdeal.Val

end
-- ==== Proof.Val3.lean ====
import proofs.«425038_j72541997629469_1_alg».proof.Proof.Val0
import proofs.«425038_j72541997629469_1_alg».proof.Proof.KI.R3Defs

noncomputable section

namespace Cert.KernelIdeal.Val

open Cert.KernelIdeal Cert.KernelIdeal.Gen Cert.KernelIdeal.Hand Idealize.ShloMosaic Idealize.ShloMosaic.ValueIdx Idealize.ShloMosaic.TcCoe Idealize.SL.Sem

namespace R3

theorem _root_.Cert.KernelIdeal.Val.pay3_zero_apply (g j : Fin 128) : k3_pay1 (F := Ideal) (ix2 g j) = 0 := by
  unfold k3_pay1
  rw [shapeCast_self]
  exact Ideal.ofBits_zero_f32

theorem onehot_word (x y : BitVec 32) :
    (FloatOps.sitofp (F := Ideal) .f32 ((IntOp.cmpi .eq x y).setWidth 32) : EReal) = if x = y then 1 else 0 := by
  by_cases h : x = y
  · have hc : IntOp.cmpi .eq x y = 1#1 := by simp [IntOp.cmpi, h]
    rw [hc, if_pos h]
    show (((BitVec.setWidth 32 1#1).toInt : ℝ) : EReal) = 1
    have : (BitVec.setWidth 32 1#1).toInt = 1 := by decide
    rw [this]; simp
  · have hc : IntOp.cmpi .eq x y = 0#1 := by
      show BitVec.ofBool (x == y) = 0#1
      rw [beq_false_of_ne h]; rfl
    rw [hc, if_neg h]
    show (((BitVec.setWidth 32 0#1).toInt : ℝ) : EReal) = 0
    have : (BitVec.setWidth 32 0#1).toInt = 0 := by decide
    rw [this]; simp

theorem onehot_apply (lab : IVec S2000x1 32) (hb : S2000x1.Broadcasts S2000x128) (hi : S2000x128.Iotas .tc 32 [1])
    (h132 : 1 < 32) (hbits : FTy.bits .bf16 < FTy.bits .f32) (p : Fin 2000) (g : Fin 128) :
    (truncf .bf16 (sitofp (F := Ideal) .f32 (extui 32 (cmpi .eq (broadcastTo S2000x128 lab hb) (iota .tc S2000x128 32 [1] hi)) h132)) hbits
        : FVec Ideal S2000x128 .bf16) (ix2 p g)
      = if lab (ix2 p (0 : Fin 1)) = BitVec.ofNat 32 g.val then 1 else 0 := by
  show (FloatOps.sitofp (F := Ideal) .f32 ((IntOp.cmpi .eq (broadcastTo S2000x128 lab hb (ix2 p g))
      (iota .tc S2000x128 32 [1] hi (ix2 p g))).setWidth 32) : EReal) = _
  rw [broadcastTo_a1_ab_apply lab hb p g, iota_single_apply .tc S2000x128 32 1 hi (ix2 p g)]
  exact onehot_word _ _

theorem lhs_pool_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q

theorem lhs_pool_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl

theorem rhs_pool_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q

theorem rhs_pool_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

theorem pool_matmul_apply (A B : FVec Ideal S2000x128 .bf16) (g j : Fin 128) :
    matmul dot_S2000x128_S2000x128_S128x128_0_0_1_1_n_n none A B (constant (F := Ideal) S128x128 .f32 0x00000000#32) (ix2 g j)
      = ∑ p : Fin 2000, A (ix2 p g) * B (ix2 p j) := by
  simp only [matmul]
  rw [Ideal.matmul_constant_zero_apply, ← Equiv.sum_comp (ValueIdx.contrEquiv1 dot_S2000x128_S2000x128_S128x128_0_0_1_1_n_n 2000 rfl rfl).symm]
  refine Finset.sum_congr rfl fun k _ => ?_
  have hk := ValueIdx.contrEquiv1_symm_val dot_S2000x128_S2000x128_S128x128_0_0_1_1_n_n 2000 rfl rfl k
  have el : dot_S2000x128_S2000x128_S128x128_0_0_1_1_n_n.lhsIdx (ix2 g j) ((ValueIdx.contrEquiv1 dot_S2000x128_S2000x128_S128x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x128_S2000x128_S128x128_0_0_1_1_n_n.rhsIdx (ix2 g j) ((ValueIdx.contrEquiv1 dot_S2000x128_S2000x128_S128x128_0_0_1_1_n_n 2000 rfl rfl).symm k) = ix2 k j := funext fun a => Fin.ext (by
    match a with
    | ⟨0, _⟩ => exact (rhs_pool_0 _ _).trans hk
    | ⟨1, _⟩ => exact rhs_pool_1 _ _)
  rw [el, er]

theorem _root_.Cert.KernelIdeal.Val.pay3_step_apply (v3 : Vec Ideal S2000x128 .f32) (v5 : Vec Ideal S2000x1 .i32) (v15 : Vec Ideal S128x128 .f32) (g j : Fin 128) :
    k3_pay2 (F := Ideal) v3 v5 v15 (ix2 g j)
      = v15 (ix2 g j) + ∑ p : Fin 2000, (if v5 (ix2 p 0) = BitVec.ofNat 32 g.val then v3 (ix2 p j) else 0) := by
  unfold k3_pay2
  rw [shapeCast_self, shapeCast_self, shapeCast_self]
  refine (addf_apply _ _ _).trans ?_
  refine congrArg (v15 (ix2 g j) + ·) ?_
  refine (pool_matmul_apply _ _ g j).trans ?_
  refine Finset.sum_congr rfl fun p _ => ?_
  rw [onehot_apply]
  show (if v5 (ix2 p 0) = BitVec.ofNat 32 g.val then (1 : EReal) else 0) * v3 (ix2 p j) = _
  split
  · exact one_mul _
  · exact zero_mul _

theorem head_matmul_apply (A B : FVec Ideal S128x128 .bf16) (g j : Fin 128) :
    matmul dot_S128x128_S128x128_S128x128_1_1_0_0_n_n none A B (constant (F := Ideal) S128x128 .f32 0x00000000#32) (ix2 g j)
      = ∑ k : Fin 128, A (ix2 g k) * B (ix2 j k) := matmulT_apply A B g j

theorem leaky_apply {s : Shape} (v : FVec Ideal s .f32) (i : s.Idx) :
    select (cmpf .oge v (broadcast s (Scalar.ofBits (F := Ideal) .f32 0x00000000#32))) v
        (mulf (broadcast s (Scalar.ofBits (F := Ideal) .f32 0x3C23D70A#32)) v) i
      = Cert.Spec.leaky (v i) := rfl

theorem rowsum_apply (a : FVec Ideal S128x128 .f32) (hr : S128x128.Reduces [1] S128) (hφ : FKind.Formats .f32)
    (hacc : (0x00000000#32 : BitVec 32) = FKind.add.neutral .f32 hφ) (g : Fin 128) :
    multiReduction .add [1] S128 a 0x00000000#32 hr hφ hacc (ix1 g) = ∑ k : Fin 128, a (ix2 g k) := by
  refine (Ideal.multiReduction_add_single a 0x00000000#32 hr hφ hacc (ix1 g)).trans ?_
  refine Finset.sum_congr rfl fun k _ => congrArg a ?_
  funext ax
  match ax with
  | ⟨0, _⟩ => rfl
  | ⟨1, _⟩ => rfl

theorem unit_rows_apply (a : FVec Ideal S128x128 .f32) (hr : S128x128.Reduces [1] S128) (hφ : FKind.Formats .f32)
    (hacc : (0x00000000#32 : BitVec 32) = FKind.add.neutral .f32 hφ) (hc : S128.ShapeCasts S128x1)
    (hb : S128x1.Broadcasts S128x128) (g j : Fin 128) :
    divf a (broadcastTo S128x128 (maximumf (sqrt (shapeCast S128x1 (multiReduction .add [1] S128 (mulf a a) 0x00000000#32 hr hφ hacc) hc))
        (broadcast S128x1 (Scalar.ofBits (F := Ideal) .f32 0x2B8CBCCC#32))) hb) (ix2 g j)
      = Cert.Spec.unitRow (fun k => a (ix2 g k)) j := by
  refine (divf_apply _ _ _).trans ?_
  rw [broadcastTo_a1_ab_apply]
  show Ideal.div (a (ix2 g j)) (max (Ideal.sqrt (shapeCast S128x1 (multiReduction .add [1] S128 (mulf a a) 0x00000000#32 hr hφ hacc) hc (ix2 g (0 : Fin 1))))
    (Ideal.ofBits .f32 0x2B8CBCCC#32)) = _
  rw [shapeCast_a_a1_apply, rowsum_apply]
  rfl

theorem _root_.Cert.KernelIdeal.Val.pay3_head_apply (v23 : Vec Ideal S128x128 .bf16) (v25 : Vec Ideal S128 .f32) (v26 : Vec Ideal S128x128 .f32) (g j : Fin 128) :
    k3_pay3 (F := Ideal) v23 v25 v26 (ix2 g j)
      = Cert.Spec.headRow (fun k => v26 (ix2 g k)) (fun j' k => v23 (ix2 j' k)) (fun j' => v25 (ix1 j')) j := by
  unfold k3_pay3
  refine (unit_rows_apply _ _ _ _ _ _ g j).trans ?_
  unfold Cert.Spec.headRow
  refine congrArg (fun s => Cert.Spec.unitRow s j) (funext fun q => ?_)
  refine (leaky_apply _ (ix2 g q)).trans ?_
  unfold Cert.Spec.headPre
  refine congrArg Cert.Spec.leaky ?_
  refine (addf_apply _ _ _).trans ?_
  rw [shapeCast_self, head_matmul_apply, broadcastTo_1b_ab_apply, shapeCast_a_1a_apply]
  rfl

open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

theorem accZero_apply (g j : Fin 128) : accZero (F := Ideal) (ix2 g j) = 0 := by
  unfold accZero
  rw [View.canon_unit_zero hz2]
  exact pay3_zero_apply g j

theorem accStep_apply (h : Vec Ideal S2000x128 .f32) (lab : Vec Ideal S2000x1 .i32) (a : Vec Ideal S128x128 .f32) (g j : Fin 128) :
    accStep h lab a (ix2 g j)
      = a (ix2 g j) + ∑ p : Fin 2000, (if lab (ix2 p 0) = BitVec.ofNat 32 g.val then h (ix2 p j) else 0) := by
  unfold accStep
  rw [View.canon_unit_zero hz2]
  simp only [View.ld_unit_zero (S := S2000x128) hz2, View.ld_unit_zero (S := S2000x1) hz2, View.ld_unit_zero (S := S128x128) hz2]
  exact pay3_step_apply h lab a g j

variable (V : (c : Dev nD) → (b : Ref sig .tc) → Buf (Elt Ideal) ((c : Thread nD τ).loc b))

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0 :=
  (by decide +kernel : ∀ t : Fin grid3.N, _)

theorem lt_25 (t : Fin cfg3.N) : t.val < 25 := lt_of_lt_of_eq t.isLt N_3

abbrev hblk (c : Dev nD) (t : Fin cfg3.N) : Vec Ideal S2000x128 .f32 := iblk3 V c 0 t
abbrev lblk (c : Dev nD) (t : Fin cfg3.N) : Vec Ideal S2000x1 .i32 := iblk3 V c 1 t

theorem hblk_apply (c : Dev nD) (t : Fin cfg3.N) (p : Fin 2000) (j : Fin 128) (r : Fin 50000) (hr : r.val = 2000 * t.val + p.val) :
    hblk V c t (ix2 p j) = V c main_v47 (ix2 r j) := by
  obtain ⟨e0, e1, -⟩ := idx_facts3 t
  exact congrArg (V c main_v47) (Shape.idx_ext₂
    (show win3_0.index t (0 : Fin 2) * 2000 + 1 * p.val = r.val by omega)
    (show win3_0.index t (1 : Fin 2) * 128 + 1 * j.val = j.val by omega))

theorem lblk_apply (c : Dev nD) (t : Fin cfg3.N) (p : Fin 2000) (r : Fin 50000) (hr : r.val = 2000 * t.val + p.val) :
    lblk V c t (ix2 p (0 : Fin 1)) = V c main_v4 (ix2 r (0 : Fin 1)) := by
  obtain ⟨-, -, e0, e1, -⟩ := idx_facts3 t
  exact congrArg (V c main_v4) (Shape.idx_ext₂
    (show win3_1.index t (0 : Fin 2) * 2000 + 1 * p.val = r.val by omega)
    (show win3_1.index t (1 : Fin 2) * 1 + 1 * 0 = 0 by omega))

theorem wblk_apply (c : Dev nD) (t : Fin cfg3.N) (j' k : Fin 128) :
    (iblk3 V c 2 t : Vec Ideal S128x128 .bf16) (ix2 j' k) = V c main_v11 (ix2 j' k) := by
  obtain ⟨-, -, -, -, e0, e1, -⟩ := idx_facts3 t
  exact congrArg (V c main_v11) (Shape.idx_ext₂
    (show win3_2.index t (0 : Fin 2) * 128 + 1 * j'.val = j'.val by omega)
    (show win3_2.index t (1 : Fin 2) * 128 + 1 * k.val = k.val by omega))

theorem bblk_apply (c : Dev nD) (t : Fin cfg3.N) (j' : Fin 128) :
    (iblk3 V c 3 t : Vec Ideal S128 .f32) (ix1 j') = V c main_arg12 (ix1 j') := by
  obtain ⟨-, -, -, -, -, -, e0, -⟩ := idx_facts3 t
  unfold iblk3
  show V c main_arg12 (((cfg3.win 3).blk t).view.emb (ix1 j')) = V c main_arg12 (ix1 j')
  refine congrArg (V c main_arg12) (funext fun a => Fin.ext ?_)
  match a with
  | ⟨0, _⟩ => show win3_3.index t (0 : Fin 1) * 128 + 1 * j'.val = j'.val; rw [e0]; omega

abbrev labOf (c : Dev nD) : Fin 50000 → BitVec 32 := fun r => V c main_v4 (ix2 r (0 : Fin 1))
abbrev rowsOf (c : Dev nD) : Fin 50000 → Fin 128 → EReal := fun r j' => V c main_v47 (ix2 r j')

def rowTerm (lab : Fin 50000 → BitVec 32) (h : Fin 50000 → Fin 128 → EReal) (g j : Fin 128) (i : ℕ) : EReal :=
  if hi : i < 50000 then (if lab ⟨i, hi⟩ = BitVec.ofNat 32 g.val then h ⟨i, hi⟩ j else 0) else 0

theorem pooled_eq_sum_range (lab : Fin 50000 → BitVec 32) (h : Fin 50000 → Fin 128 → EReal) (g j : Fin 128) :
    Cert.Spec.pooled lab h g j = ∑ i ∈ Finset.range 50000, rowTerm lab h g j i := by
  rw [Finset.sum_range]
  unfold Cert.Spec.pooled
  refine Finset.sum_congr rfl fun r _ => ?_
  unfold rowTerm
  rw [dif_pos r.isLt]

theorem block_sum (c : Dev nD) (t : Fin cfg3.N) (g j : Fin 128) :
    (∑ p : Fin 2000, (if lblk V c t (ix2 p (0 : Fin 1)) = BitVec.ofNat 32 g.val then hblk V c t (ix2 p j) else 0))
      = ∑ x ∈ Finset.range 2000, rowTerm (labOf V c) (rowsOf V c) g j (2000 * t.val + x) := by
  have hN : t.val < 25 := lt_25 t
  rw [Finset.sum_range]
  refine Finset.sum_congr rfl fun p _ => ?_
  have hlt : 2000 * t.val + p.val < 50000 := by have := p.isLt; omega
  unfold rowTerm
  rw [dif_pos hlt, hblk_apply V c t p j ⟨_, hlt⟩ rfl, lblk_apply V c t p ⟨_, hlt⟩ rfl]

theorem acc_rows (c : Dev nD) (n : ℕ) (hn : n < cfg3.N) (g j : Fin 128) :
    accAt V c n hn (ix2 g j) = ∑ i ∈ Finset.range (2000 * n + 2000), rowTerm (labOf V c) (rowsOf V c) g j i := by
  induction n with
  | zero =>
    rw [accAt_zero]
    refine (accStep_apply (hblk V c ⟨0, hn⟩) (lblk V c ⟨0, hn⟩) (accZero (F := Ideal)) g j).trans ?_
    rw [accZero_apply, zero_add]
    refine (block_sum V c ⟨0, hn⟩ g j).trans ?_
    simp only [Nat.mul_zero, Nat.zero_add]
  | succ n ih =>
    rw [accAt_succ]
    refine (accStep_apply (hblk V c ⟨n + 1, hn⟩) (lblk V c ⟨n + 1, hn⟩) (accAt V c n (Nat.lt_of_succ_lt hn)) g j).trans ?_
    rw [ih (Nat.lt_of_succ_lt hn), block_sum V c ⟨n + 1, hn⟩ g j,
      show 2000 * (n + 1) + 2000 = (2000 * n + 2000) + 2000 by omega,
      Finset.sum_range_add (rowTerm (labOf V c) (rowsOf V c) g j) (2000 * n + 2000) 2000]
    refine congrArg (fun z : EReal => _ + z) (Finset.sum_congr rfl fun x _ => ?_)
    show rowTerm _ _ g j (2000 * (n + 1) + x) = _
    rw [show 2000 * (n + 1) + x = 2000 * n + 2000 + x by omega]

theorem acc_last (c : Dev nD) (t : Fin cfg3.N) (ht : t.val = 24) (g k : Fin 128) :
    accAt V c t.val t.isLt (ix2 g k) = Cert.Spec.pooled (labOf V c) (rowsOf V c) g k := by
  rw [acc_rows V c t.val t.isLt g k, ht, pooled_eq_sum_range]

def headArr (c : Dev nD) : S128x128.Idx → EReal := fun i =>
  Cert.Spec.headRow
    (fun k => Cert.Spec.pooled (labOf V c) (rowsOf V c) ⟨(i 0).val, idx2_lt0 i⟩ k)
    (fun j' k => V c main_v11 (ix2 j' k)) (fun j' => V c main_arg12 (ix1 j')) ⟨(i 1).val, idx2_lt1 i⟩

theorem headArr_apply (c : Dev nD) (g j : Fin 128) :
    headArr V c (ix2 g j)
      = Cert.Spec.headRow (fun k => Cert.Spec.pooled (labOf V c) (rowsOf V c) g k)
          (fun j' k => V c main_v11 (ix2 j' k)) (fun j' => V c main_arg12 (ix1 j')) j := rfl

theorem cut4_apply (t : Fin cfg3.N) (X : S128x128.Idx → EReal) (g j : Fin 128) :
    (cfg3.win 4).cut (grid3.coords t) X (ix2 g j) = X (ix2 g j) := rfl

theorem read4_apply (t : Fin cfg3.N) (G : S128x128.Idx → EReal) (g j : Fin 128) :
    ((cfg3.win 4).blk t).view.read (Elt Ideal) G (ix2 g j) = G (ix2 g j) := by
  obtain ⟨-, -, -, -, -, -, -, e0, e1⟩ := idx_facts3 t
  exact congrArg G (Shape.idx_ext₂
    (show win3_4.index t (0 : Fin 2) * 128 + 1 * g.val = g.val by omega)
    (show win3_4.index t (1 : Fin 2) * 128 + 1 * j.val = j.val by omega))

theorem flushed4_eq (c : Dev nD) (t : Fin cfg3.N) (hf : (cfg3.win 4).flush t = true) :
    (dat3 V c).flushed 4 t = ((cfg3.win 4).blk t).view.read (Elt Ideal) (headArr V c) := by
  have hN : t.val < 25 := lt_25 t
  have ht : t.val = 24 := by have := (flush3_4 t).mp hf; omega
  show (cfg3.win 4).cut (grid3.coords t) ((dat3 V c).after 4 t) = _
  rw [after3_4]
  unfold out3_4
  rw [View.canon_unit_zero hz2]
  simp only [View.ld_unit_zero (S := S128x128) hz2, View.ld_unit_zero (S := S128) hz1]
  funext y
  obtain ⟨g, j, rfl⟩ : ∃ (g j : Fin 128), y = ix2 g j := ⟨y 0, y 1, eq_ix2 y⟩
  refine (cut4_apply t (k3_pay3 (iblk3 V c 2 t) (iblk3 V c 3 t) (accAt V c t.val t.isLt)) g j).trans ?_
  refine Eq.trans ?_ (read4_apply t (headArr V c) g j).symm
  rw [headArr_apply]
  refine (pay3_head_apply (iblk3 V c 2 t) (iblk3 V c 3 t) (accAt V c t.val t.isLt) g j).trans ?_
  have ea : (fun k => (accAt V c t.val t.isLt : Vec Ideal S128x128 .f32) (ix2 g k))
      = fun k => Cert.Spec.pooled (labOf V c) (rowsOf V c) g k :=
    funext fun k => acc_last V c t ht g k
  have ew : (fun j' k => (iblk3 V c 2 t : Vec Ideal S128x128 .bf16) (ix2 j' k)) = fun j' k => V c main_v11 (ix2 j' k) :=
    funext fun j' => funext fun k => wblk_apply V c t j' k
  have eb : (fun j' => (iblk3 V c 3 t : Vec Ideal S128 .f32) (ix1 j')) = fun j' => V c main_arg12 (ix1 j') :=
    funext fun j' => bblk_apply V c t j'
  rw [ea, ew, eb]

theorem cover4 (i : S128x128.Idx) :
    ∃ t : Fin cfg3.N, (cfg3.win 4).flush t = true ∧ i ∈ ((cfg3.win 4).blk t).view.set := by
  have h24 : (24 : ℕ) < cfg3.N := lt_of_lt_of_eq (by omega : 24 < 25) N_3.symm
  obtain ⟨-, -, -, -, -, -, -, e0, e1⟩ := idx_facts3 ⟨24, h24⟩
  refine ⟨⟨24, h24⟩, (flush3_4 ⟨24, h24⟩).mpr rfl, ?_⟩
  show i ∈ ((View.whole main_v48).slice (win3_4.rect ⟨24, h24⟩)).set
  rw [View.set_slice_whole, Rect.mem_set_unit]
  intro a
  have h0 : (i 0).val < 128 := idx2_lt0 i
  have h1 : (i 1).val < 128 := idx2_lt1 i
  match a with
  | ⟨0, _⟩ =>
    show win3_4.index ⟨24, h24⟩ (0 : Fin 2) * 128 ≤ (i 0).val ∧ (i 0).val < win3_4.index ⟨24, h24⟩ (0 : Fin 2) * 128 + 128
    rw [e0]; omega
  | ⟨1, _⟩ =>
    show win3_4.index ⟨24, h24⟩ (1 : Fin 2) * 128 ≤ (i 1).val ∧ (i 1).val < win3_4.index ⟨24, h24⟩ (1 : Fin 2) * 128 + 128
    rw [e1]; omega

theorem _root_.Cert.KernelIdeal.Val.final3 (c : Dev nD) (g j : Fin 128) :
    (dat3 (F := Ideal) V c).arrAt 4 cfg3.N (ix2 g j)
      = Cert.Spec.headRow (fun k => Cert.Spec.pooled (fun r : Fin 50000 => V c main_v4 (ix2 r 0)) (fun r j' => V c main_v47 (ix2 r j')) g k)
          (fun j' k => V c main_v11 (ix2 j' k)) (fun j' => V c main_arg12 (ix1 j')) j := by
  have hfin : (dat3 V c).arrAt 4 cfg3.N = headArr V c :=
    (dat3 V c).arrAt_eq_of_cover 4 (headArr V c) (fun t hf => flushed4_eq V c t hf) cover4
  exact (congrFun hfin (ix2 g j)).trans (headArr_apply V c g j)

end R3

end Cert.KernelIdeal.Val

end
-- ==== Proof.RefPre.lean ====
import proofs.«425038_j72541997629469_1_alg».proof.Proof.Spec
import proofs.«425038_j72541997629469_1_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.ReadP Idealize.ShloMosaic Idealize.ShloMosaic.ValueIdx
  Idealize.ShloMosaic.TcCoe Idealize.SL.Sem

theorem rowSum_ref (x0 : (⟨S50000x128, .f32⟩ : BufTy).Contents (Elt Ideal)) (r : Fin 50000) :
    val_main_v4 (F := Ideal) x0 (ix1 r) = ∑ j : Fin 128, x0 (ix2 r j) := by
  rw [val_main_v4_apply]
  show Ideal.ofBits .f32 0x00000000#32 + _ = _
  rw [Ideal.ofBits_zero_f32, zero_add]
  refine Finset.sum_congr rfl fun k _ => congrArg x0 ?_
  funext a
  match a with
  | ⟨0, _⟩ => rfl
  | ⟨1, _⟩ => rfl

theorem rinv_ref (x0 : (⟨S50000x128, .f32⟩ : BufTy).Contents (Elt Ideal)) (r : Fin 50000) :
    val_main_v9 (F := Ideal) x0 (ix1 r) = Cert.Spec.rinv (fun j => x0 (ix2 r j)) := by
  rw [val_main_v9_apply, val_main_v6_apply, val_main_v8_apply, rowSum_ref, val_main_v5_apply, val_main_v7_apply,
    val_main_call0_v1_apply]
  rfl

theorem refXpre (x0 : (⟨S50000x128, .f32⟩ : BufTy).Contents (Elt Ideal)) (r : Fin 50000) (j : Fin 128) :
    val_main_v12 (F := Ideal) x0 (ix2 r j) = Cert.Spec.xpre (fun j' => x0 (ix2 r j')) j := by
  rw [val_main_v12_apply, val_main_v11_apply, val_main_v10_apply]
  have hi : idx_main_v10 (idx_main_v11 (ix2 r j)) = ix1 r := by
    funext a
    match a with
    | ⟨0, _⟩ => rfl
  rw [hi, rinv_ref]
  rfl

end Cert.ReferenceIdeal.RefVal

end
-- ==== Proof.RefSage1.lean ====
import proofs.«425038_j72541997629469_1_alg».proof.Proof.Spec
import proofs.«425038_j72541997629469_1_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.Gen Cert.ReferenceIdeal.ReadP Idealize.ShloMosaic Idealize.ShloMosaic.ValueIdx Idealize.ShloMosaic.TcCoe Idealize.SL.Sem

abbrev Arr (F : FTy → Type) (s : Shape) : Type := (⟨s, .f32⟩ : BufTy).Contents (Elt F)

section Layer

variable {F : FTy → Type} [FloatOps F]

def leakyR (v : Arr F S50000x128) : Arr F S50000x128 :=
  select (cmpf .oge v (broadcastInDim S50000x128 ![] bcast_S_S50000x128 (constant (F := F) S_ .f32 0x00000000#32)))
    v (mulf (broadcastInDim S50000x128 ![] bcast_S_S50000x128 (constant (F := F) S_ .f32 0x3C23D70A#32)) v)

def sageR (mean own : Arr F S50000x128) (wl wr : Arr F S128x128) : Arr F S50000x128 :=
  addf
    (Host.dotGeneral dot_S50000x128_S128x128_S50000x128_1_0_0_1_n_n none mean
      (transpose S128x128 [1, 0] wl transposes_S128x128_S128x128_1_0))
    (Host.dotGeneral dot_S50000x128_S128x128_S50000x128_1_0_0_1_n_n none own
      (transpose S128x128 [1, 0] wr transposes_S128x128_S128x128_1_0))

def unitR (s : Arr F S50000x128) : Arr F S50000x128 :=
  Host.divf s
    (broadcastInDim S50000x128 ![0, 1] bcast_S50000x1_S50000x128_0_1
      (maximumf
        (Host.sqrt (broadcastInDim S50000x1 ![0] bcast_S50000_S50000x1_0
          (Host.reduceAdd (mulf s s) (constant (F := F) S_ .f32 0x00000000#32) reducesTo_S50000x128_S50000_d1 h_S_)))
        (broadcastInDim S50000x1 ![] bcast_S_S50000x1 (constant (F := F) S_ .f32 0x2B8CBCCC#32))))

def denseR (u own : Arr F S50000x128) (fcw : Arr F S128x256) (fcb : Arr F S128) : Arr F S50000x128 :=
  addf
    (Host.dotGeneral dot_S50000x256_S256x128_S50000x128_1_0_0_1_n_n none
      (concatenate S50000x256 1 [⟨S50000x128, u⟩, ⟨S50000x128, own⟩] concatenates_S50000x128_S50000x128_S50000x256_d1)
      (transpose S256x128 [1, 0] fcw transposes_S128x256_S256x128_1_0))
    (broadcastInDim S50000x128 ![0, 1] bcast_S1x128_S50000x128_0_1 (broadcastInDim S1x128 ![1] bcast_S128_S1x128_1 fcb))

def layerR (mean own : Arr F S50000x128) (wl wr : Arr F S128x128) (fcw : Arr F S128x256) (fcb : Arr F S128) :
    Arr F S50000x128 :=
  leakyR (denseR (leakyR (unitR (sageR mean own wl wr))) own fcw fcb)

theorem refLayer1_eq (x0 : Arr F S50000x128) (x1 : (⟨S2x600000, .i32⟩ : BufTy).Contents (Elt F)) (x3 x4 : Arr F S128x128)
    (x7 : Arr F S128x256) (x8 : Arr F S128) :
    val_main_v60 (F := F) x0 x1 x3 x4 x7 x8
      = layerR (val_main_v31 (F := F) x0 x1) (val_main_v12 (F := F) x0) x3 x4 x7 x8 := rfl

theorem refLayer2_eq (x0 : Arr F S50000x128) (x1 : (⟨S2x600000, .i32⟩ : BufTy).Contents (Elt F)) (x3 x4 x5 x6 : Arr F S128x128)
    (x7 : Arr F S128x256) (x8 : Arr F S128) (x9 : Arr F S128x256) (x10 : Arr F S128) :
    val_main_v108 (F := F) x0 x1 x3 x4 x5 x6 x7 x8 x9 x10
      = layerR (val_main_v79 (F := F) x0 x1 x3 x4 x7 x8) (val_main_v60 (F := F) x0 x1 x3 x4 x7 x8) x5 x6 x9 x10 := rfl

end Layer

section AtIndex

theorem transpose128_apply (w : Arr Ideal S128x128) (k q : Fin 128) :
    transpose S128x128 [1, 0] w transposes_S128x128_S128x128_1_0 (ix2 k q) = w (ix2 q k) :=
  transpose_apply [1, 0] w transposes_S128x128_S128x128_1_0 (ix2 k q) (ix2 q k) (fun b => match b with
    | ⟨0, _⟩ => rfl
    | ⟨1, _⟩ => rfl)

theorem transpose256_apply (w : Arr Ideal S128x256) (k : Fin 256) (j : Fin 128) :
    transpose S256x128 [1, 0] w transposes_S128x256_S256x128_1_0 (ix2 k j) = w (ix2 j k) :=
  transpose_apply [1, 0] w transposes_S128x256_S256x128_1_0 (ix2 k j) (ix2 j k) (fun b => match b with
    | ⟨0, _⟩ => rfl
    | ⟨1, _⟩ => rfl)

theorem column_apply (y : (⟨S50000, .f32⟩ : BufTy).Contents (Elt Ideal)) (r : Fin 50000) (c : Fin 1) :
    broadcastInDim S50000x1 ![0] bcast_S50000_S50000x1_0 y (ix2 r c) = y (ix1 r) :=
  broadcastInDim_apply _ bcast_S50000_S50000x1_0 y (ix2 r c) (ix1 r) (fun a => match a with
    | ⟨0, _⟩ => by show r.val = if (50000 : Nat) = 1 then 0 else r.val; rw [if_neg (by decide)])

theorem alongRow_apply (y : Arr Ideal S50000x1) (r : Fin 50000) (q : Fin 128) :
    broadcastInDim S50000x128 ![0, 1] bcast_S50000x1_S50000x128_0_1 y (ix2 r q) = y (ix2 r 0) :=
  broadcastInDim_apply _ bcast_S50000x1_S50000x128_0_1 y (ix2 r q) (ix2 r 0) (fun a => match a with
    | ⟨0, _⟩ => by show r.val = if (50000 : Nat) = 1 then 0 else r.val; rw [if_neg (by decide)]
    | ⟨1, _⟩ => by show 0 = if (1 : Nat) = 1 then 0 else q.val; rw [if_pos rfl])

theorem bias_apply (b : Arr Ideal S128) (r : Fin 50000) (j : Fin 128) :
    broadcastInDim S50000x128 ![0, 1] bcast_S1x128_S50000x128_0_1 (broadcastInDim S1x128 ![1] bcast_S128_S1x128_1 b) (ix2 r j)
      = b (ix1 j) := by
  rw [broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

theorem word_apply {t : Shape} (h : S_.BroadcastsInDim t (![] : Fin 0 → Fin t.rank)) (w : BitVec 32) (i : t.Idx) :
    broadcastInDim t ![] h (constant (F := Ideal) S_ .f32 w) i = Ideal.ofBits .f32 w := rfl

theorem leakyR_apply (v : Arr Ideal S50000x128) (i : S50000x128.Idx) : leakyR v i = Cert.Spec.leaky (v i) := rfl

theorem dot128_apply (a : Arr Ideal S50000x128) (b : Arr Ideal S128x128) (r : Fin 50000) (q : Fin 128) :
    Host.dotGeneral (F := Ideal) (φ₁ := .f32) (φ₂ := .f32) dot_S50000x128_S128x128_S50000x128_1_0_0_1_n_n none a b (ix2 r q)
      = ∑ k : Fin 128, a (ix2 r k) * b (ix2 k q) := by
  simp only [Host.dotGeneral]
  rw [Ideal.dotGeneral_apply]
  refine Fintype.sum_equiv (contrEquiv1 dot_S50000x128_S128x128_S50000x128_1_0_0_1_n_n 128 rfl rfl) _ _ fun c => ?_
  have hc : ((contrEquiv1 dot_S50000x128_S128x128_S50000x128_1_0_0_1_n_n 128 rfl rfl) c).val = (c ⟨0, by decide⟩).val := rfl
  have el : dot_S50000x128_S128x128_S50000x128_1_0_0_1_n_n.lhsIdx (ix2 r q) c
      = ix2 r ((contrEquiv1 dot_S50000x128_S128x128_S50000x128_1_0_0_1_n_n 128 rfl rfl) c) := funext fun ax => Fin.ext (by
    match ax with
    | ⟨0, _⟩ => exact lhs_main_v33_0 _ _
    | ⟨1, _⟩ => exact (lhs_main_v33_1 _ _).trans hc.symm)
  have er : dot_S50000x128_S128x128_S50000x128_1_0_0_1_n_n.rhsIdx (ix2 r q) c
      = ix2 ((contrEquiv1 dot_S50000x128_S128x128_S50000x128_1_0_0_1_n_n 128 rfl rfl) c) q := funext fun ax => Fin.ext (by
    match ax with
    | ⟨0, _⟩ => exact (rhs_main_v33_0 _ _).trans hc.symm
    | ⟨1, _⟩ => exact rhs_main_v33_1 _ _)
  rw [el, er]

theorem dot256_apply (a : Arr Ideal S50000x256) (b : Arr Ideal S256x128) (r : Fin 50000) (j : Fin 128) :
    Host.dotGeneral (F := Ideal) (φ₁ := .f32) (φ₂ := .f32) dot_S50000x256_S256x128_S50000x128_1_0_0_1_n_n none a b (ix2 r j)
      = ∑ k : Fin 256, a (ix2 r k) * b (ix2 k j) := by
  simp only [Host.dotGeneral]
  rw [Ideal.dotGeneral_apply]
  refine Fintype.sum_equiv (contrEquiv1 dot_S50000x256_S256x128_S50000x128_1_0_0_1_n_n 256 rfl rfl) _ _ fun c => ?_
  have hc : ((contrEquiv1 dot_S50000x256_S256x128_S50000x128_1_0_0_1_n_n 256 rfl rfl) c).val = (c ⟨0, by decide⟩).val := rfl
  have el : dot_S50000x256_S256x128_S50000x128_1_0_0_1_n_n.lhsIdx (ix2 r j) c
      = ix2 r ((contrEquiv1 dot_S50000x256_S256x128_S50000x128_1_0_0_1_n_n 256 rfl rfl) c) := funext fun ax => Fin.ext (by
    match ax with
    | ⟨0, _⟩ => exact lhs_main_v52_0 _ _
    | ⟨1, _⟩ => exact (lhs_main_v52_1 _ _).trans hc.symm)
  have er : dot_S50000x256_S256x128_S50000x128_1_0_0_1_n_n.rhsIdx (ix2 r j) c
      = ix2 ((contrEquiv1 dot_S50000x256_S256x128_S50000x128_1_0_0_1_n_n 256 rfl rfl) c) j := funext fun ax => Fin.ext (by
    match ax with
    | ⟨0, _⟩ => exact (rhs_main_v52_0 _ _).trans hc.symm
    | ⟨1, _⟩ => exact rhs_main_v52_1 _ _)
  rw [el, er]

theorem sumSq_apply (s : Arr Ideal S50000x128) (r : Fin 50000) :
    Host.reduceAdd (F := Ideal) (φ := .f32) (mulf (F := Ideal) (φ := .f32) s s) (constant (F := Ideal) S_ .f32 0x00000000#32)
        reducesTo_S50000x128_S50000_d1 h_S_ (ix1 r)
      = ∑ k : Fin 128, s (ix2 r k) * s (ix2 r k) := by
  unfold Host.reduceAdd
  rw [Ideal.hostReduceAdd_def, Ideal.hostReduceAdd_single reducesTo_S50000x128_S50000_d1 (by decide), constant_apply,
    Ideal.ofBits_zero_f32, zero_add]
  refine Finset.sum_congr rfl fun k _ => ?_
  rw [mulf_apply]
  exact congrArg (fun i => s i * s i) (funext fun a => Fin.ext (by match a with | ⟨0, _⟩ => rfl | ⟨1, _⟩ => rfl))

end AtIndex

section AtRow

theorem dotT128_apply (a : Arr Ideal S50000x128) (w : Arr Ideal S128x128) (r : Fin 50000) (q : Fin 128) :
    Host.dotGeneral (F := Ideal) (φ₁ := .f32) (φ₂ := .f32) dot_S50000x128_S128x128_S50000x128_1_0_0_1_n_n none a
        (transpose S128x128 [1, 0] w transposes_S128x128_S128x128_1_0) (ix2 r q)
      = ∑ k : Fin 128, a (ix2 r k) * w (ix2 q k) := by
  rw [dot128_apply]
  exact Finset.sum_congr rfl fun k _ => by rw [transpose128_apply]

theorem hostDivf_apply {s : Shape} (a b : Arr Ideal s) (i : s.Idx) :
    Host.divf (F := Ideal) (φ := .f32) a b i = Ideal.div (a i) (b i) := rfl

theorem hostSqrt_apply {s : Shape} (a : Arr Ideal s) (i : s.Idx) :
    Host.sqrt (F := Ideal) (φ := .f32) a i = Ideal.sqrt (a i) := rfl

theorem cat_apply (u own : Arr Ideal S50000x128) (r : Fin 50000) (k : Fin 256) :
    concatenate S50000x256 1 [⟨S50000x128, u⟩, ⟨S50000x128, own⟩] concatenates_S50000x128_S50000x128_S50000x256_d1 (ix2 r k)
      = Cert.Spec.catRow (fun q => u (ix2 r q)) (fun q => own (ix2 r q)) k := by
  unfold Cert.Spec.catRow
  by_cases hk : k.val < 128
  · rw [dif_pos hk]
    exact concatenate_pair_apply_left 1 u own concatenates_S50000x128_S50000x128_S50000x256_d1 (ix2 r k) rfl
      (ix2 r ⟨k.val, hk⟩) (fun b => match b with
        | ⟨0, _⟩ => rfl
        | ⟨1, _⟩ => rfl)
  · rw [dif_neg hk]
    exact concatenate_pair_apply_right 1 u own concatenates_S50000x128_S50000x128_S50000x256_d1 (ix2 r k) rfl rfl
      (ix2 r ⟨k.val - 128, by omega⟩) (fun b hb => match b, hb with
        | ⟨0, _⟩, _ => rfl
        | ⟨1, _⟩, hb => absurd rfl hb)
      (by show k.val - 128 + 128 = k.val; omega)

theorem sageR_apply (mean own : Arr Ideal S50000x128) (wl wr : Arr Ideal S128x128) (r : Fin 50000) (q : Fin 128) :
    sageR mean own wl wr (ix2 r q)
      = Cert.Spec.sagePre (fun k => mean (ix2 r k)) (fun k => own (ix2 r k)) (fun j' k => wl (ix2 j' k))
          (fun j' k => wr (ix2 j' k)) q := by
  unfold sageR Cert.Spec.sagePre
  rw [addf_apply, dotT128_apply, dotT128_apply]

theorem unitR_apply (s : Arr Ideal S50000x128) (r : Fin 50000) (q : Fin 128) :
    unitR s (ix2 r q) = Cert.Spec.unitRow (fun q' => s (ix2 r q')) q := by
  unfold unitR Cert.Spec.unitRow
  rw [hostDivf_apply, alongRow_apply, maximumf_apply, hostSqrt_apply, column_apply, sumSq_apply, word_apply]

theorem denseR_apply (u own : Arr Ideal S50000x128) (fcw : Arr Ideal S128x256) (fcb : Arr Ideal S128) (r : Fin 50000)
    (j : Fin 128) :
    denseR u own fcw fcb (ix2 r j)
      = (∑ k : Fin 256, Cert.Spec.catRow (fun q => u (ix2 r q)) (fun q => own (ix2 r q)) k * fcw (ix2 j k)) + fcb (ix1 j) := by
  unfold denseR
  rw [addf_apply, dot256_apply, bias_apply]
  exact congrArg (· + fcb (ix1 j)) (Finset.sum_congr rfl fun k _ => by rw [cat_apply, transpose256_apply])

theorem layerR_apply (mean own : Arr Ideal S50000x128) (wl wr : Arr Ideal S128x128) (fcw : Arr Ideal S128x256)
    (fcb : Arr Ideal S128) (r : Fin 50000) (j : Fin 128) :
    layerR mean own wl wr fcw fcb (ix2 r j)
      = Cert.Spec.rowSage (fun k => mean (ix2 r k)) (fun k => own (ix2 r k)) (fun j' k => wl (ix2 j' k))
          (fun j' k => wr (ix2 j' k)) (fun j' k => fcw (ix2 j' k)) (fun j' => fcb (ix1 j')) j := by
  unfold layerR Cert.Spec.rowSage
  rw [leakyR_apply, denseR_apply]
  have hu : (fun q => leakyR (unitR (sageR mean own wl wr)) (ix2 r q))
      = fun q => Cert.Spec.leaky (Cert.Spec.unitRow (Cert.Spec.sagePre (fun k => mean (ix2 r k)) (fun k => own (ix2 r k))
          (fun j' k => wl (ix2 j' k)) (fun j' k => wr (ix2 j' k))) q) := by
    funext q
    rw [leakyR_apply, unitR_apply]
    exact congrArg (fun s => Cert.Spec.leaky (Cert.Spec.unitRow s q)) (funext fun q' => sageR_apply mean own wl wr r q')
  rw [hu]

end AtRow

theorem refLayer1 (x0 : (⟨S50000x128, .f32⟩ : BufTy).Contents (Elt Ideal)) (x1 : (⟨S2x600000, .i32⟩ : BufTy).Contents (Elt Ideal))
    (x3 x4 : (⟨S128x128, .f32⟩ : BufTy).Contents (Elt Ideal)) (x7 : (⟨S128x256, .f32⟩ : BufTy).Contents (Elt Ideal))
    (x8 : (⟨S128, .f32⟩ : BufTy).Contents (Elt Ideal)) (r : Fin 50000) (j : Fin 128) :
    val_main_v60 (F := Ideal) x0 x1 x3 x4 x7 x8 (ix2 r j)
      = Cert.Spec.rowSage (fun k => val_main_v31 (F := Ideal) x0 x1 (ix2 r k)) (fun k => val_main_v12 (F := Ideal) x0 (ix2 r k))
          (fun j' k => x3 (ix2 j' k)) (fun j' k => x4 (ix2 j' k)) (fun j' k => x7 (ix2 j' k)) (fun j' => x8 (ix1 j')) j := by
  rw [refLayer1_eq]
  exact layerR_apply _ _ x3 x4 x7 x8 r j

theorem refLayer2 (x0 : (⟨S50000x128, .f32⟩ : BufTy).Contents (Elt Ideal)) (x1 : (⟨S2x600000, .i32⟩ : BufTy).Contents (Elt Ideal))
    (x3 x4 x5 x6 : (⟨S128x128, .f32⟩ : BufTy).Contents (Elt Ideal)) (x7 : (⟨S128x256, .f32⟩ : BufTy).Contents (Elt Ideal))
    (x8 : (⟨S128, .f32⟩ : BufTy).Contents (Elt Ideal)) (x9 : (⟨S128x256, .f32⟩ : BufTy).Contents (Elt Ideal))
    (x10 : (⟨S128, .f32⟩ : BufTy).Contents (Elt Ideal)) (r : Fin 50000) (j : Fin 128) :
    val_main_v108 (F := Ideal) x0 x1 x3 x4 x5 x6 x7 x8 x9 x10 (ix2 r j)
      = Cert.Spec.rowSage (fun k => val_main_v79 (F := Ideal) x0 x1 x3 x4 x7 x8 (ix2 r k))
          (fun k => val_main_v60 (F := Ideal) x0 x1 x3 x4 x7 x8 (ix2 r k))
          (fun j' k => x5 (ix2 j' k)) (fun j' k => x6 (ix2 j' k)) (fun j' k => x9 (ix2 j' k)) (fun j' => x10 (ix1 j')) j := by
  rw [refLayer2_eq]
  exact layerR_apply _ _ x5 x6 x9 x10 r j

end Cert.ReferenceIdeal.RefVal

end
-- ==== Proof.LibRowGatherScatter.lean ====
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by

  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl

  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  ·
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  ·
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1

  rw [Finset.sum_filter, sum_idx2]
  refine Finset.sum_congr rfl fun e _ => ?_
  by_cases he : (idx (ix2 e (0 : Fin 1))).toInt = (i.val : Int)
  ·
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  ·
    rw [if_neg he]
    refine Finset.sum_eq_zero fun k' _ => ?_
    rw [if_neg fun h => he ((resultIdx_rows_iff d huw hiw hsd hivd idx e k' i k).1 h).1]

end Idealize.ShloMosaic.RowOps

end
-- ==== Proof.RefHead.lean ====
import proofs.«425038_j72541997629469_1_alg».proof.Proof.Spec
import proofs.«425038_j72541997629469_1_alg».proof.Proof.RefRead
import proofs.«425038_j72541997629469_1_alg».proof.Proof.LibRowGatherScatter
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.ReadP Idealize.ShloMosaic Idealize.ShloMosaic.ValueIdx Idealize.ShloMosaic.TcCoe Idealize.SL.Sem

namespace HeadAux

section Stages

variable (x0 : (⟨S50000x128, .f32⟩ : BufTy).Contents (Elt Ideal)) (x1 : (⟨S2x600000, .i32⟩ : BufTy).Contents (Elt Ideal))
  (x2 : (⟨S50000, .i32⟩ : BufTy).Contents (Elt Ideal)) (x3 x4 x5 x6 : (⟨S128x128, .f32⟩ : BufTy).Contents (Elt Ideal))
  (x7 : (⟨S128x256, .f32⟩ : BufTy).Contents (Elt Ideal)) (x8 : (⟨S128, .f32⟩ : BufTy).Contents (Elt Ideal))
  (x9 : (⟨S128x256, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))

theorem lidx113 (g j k : Fin 128) : lidx_main_v113 (ix2 g j) k = ix2 g k :=
  funext fun a => Fin.ext (by match a with | ⟨0, _⟩ => rfl | ⟨1, _⟩ => rfl)

theorem ridx113 (g j k : Fin 128) : idx_main_v112 (ridx_main_v113 (ix2 g j) k) = ix2 j k :=
  funext fun a => Fin.ext (by match a with | ⟨0, _⟩ => rfl | ⟨1, _⟩ => rfl)

theorem idx115 (g j : Fin 128) : idx_main_v114 (idx_main_v115 (ix2 g j)) = ix1 j :=
  funext fun a => Fin.ext (by match a with | ⟨0, _⟩ => rfl)

theorem idx124 (g j : Fin 128) : idx_main_v124 (idx_main_v128 (ix2 g j)) = ix1 g :=
  funext fun a => Fin.ext (by match a with | ⟨0, _⟩ => rfl)

theorem idx123 (g k : Fin 128) : idx_main_v123 (ix1 g) k = ix2 g k :=
  funext fun a => Fin.ext (by match a with | ⟨0, _⟩ => rfl | ⟨1, _⟩ => rfl)

theorem lin_at (g j : Fin 128) :
    val_main_v116 (F := Ideal) x0 x1 x2 x3 x4 x5 x6 x7 x8 x9 x10 x11 x12 (ix2 g j)
      = (∑ k : Fin 128, val_main_v111 (F := Ideal) x0 x1 x2 x3 x4 x5 x6 x7 x8 x9 x10 (ix2 g k) * x11 (ix2 j k)) + x12 (ix1 j) := by
  rw [val_main_v116_apply, val_main_v113_apply, val_main_v115_apply, val_main_v114_apply, Ideal.addf_def, idx115]
  simp only [val_main_v112_apply, lidx113, ridx113]

theorem act_at (g j : Fin 128) :
    val_main_v121 (F := Ideal) x0 x1 x2 x3 x4 x5 x6 x7 x8 x9 x10 x11 x12 (ix2 g j)
      = Cert.Spec.headPre (fun k => val_main_v111 (F := Ideal) x0 x1 x2 x3 x4 x5 x6 x7 x8 x9 x10 (ix2 g k))
          (fun j' k => x11 (ix2 j' k)) (fun j' => x12 (ix1 j')) j := by
  rw [val_main_v121_apply, val_main_v118_apply, val_main_v120_apply, val_main_v117_apply, val_main_v119_apply,
    val_main_cst_27_apply, val_main_cst_28_apply, lin_at]
  rfl

theorem len_at (g j : Fin 128) :
    val_main_v128 (F := Ideal) x0 x1 x2 x3 x4 x5 x6 x7 x8 x9 x10 x11 x12 (ix2 g j)
      = max (Ideal.sqrt (∑ j' : Fin 128,
          Cert.Spec.headPre (fun k => val_main_v111 (F := Ideal) x0 x1 x2 x3 x4 x5 x6 x7 x8 x9 x10 (ix2 g k))
            (fun j' k => x11 (ix2 j' k)) (fun j' => x12 (ix1 j')) j'
          * Cert.Spec.headPre (fun k => val_main_v111 (F := Ideal) x0 x1 x2 x3 x4 x5 x6 x7 x8 x9 x10 (ix2 g k))
            (fun j' k => x11 (ix2 j' k)) (fun j' => x12 (ix1 j')) j')) Cert.Spec.eps := by
  rw [val_main_v128_apply, val_main_v127_apply, val_main_v125_apply, val_main_v124_apply, val_main_v126_apply,
    val_main_cst_30_apply, idx124, val_main_v123_apply, val_main_cst_29_apply]
  simp only [val_main_v122_apply, idx123, act_at, Ideal.mulf_def, Ideal.maximumf_def, Ideal.hostUnary_sqrt_def,
    Ideal.ofBits_def, Ideal.ofBits_zero_f32, zero_add]

end Stages

theorem toInt_eq_iff (b : BitVec 32) (g : Fin 128) : b.toInt = (g.val : Int) ↔ b = BitVec.ofNat 32 g.val := by
  have hg := g.isLt
  have hb := b.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    split <;> omega

theorem idx110 (e : Fin 50000) : idx_main_v110 (ix2 e (0 : Fin 1)) = ix1 e :=
  funext fun a => Fin.ext (by match a with | ⟨0, _⟩ => rfl)

end HeadAux

open HeadAux

theorem refHead (x0 : (⟨S50000x128, .f32⟩ : BufTy).Contents (Elt Ideal)) (x1 : (⟨S2x600000, .i32⟩ : BufTy).Contents (Elt Ideal))
    (x2 : (⟨S50000, .i32⟩ : BufTy).Contents (Elt Ideal)) (x3 x4 x5 x6 : (⟨S128x128, .f32⟩ : BufTy).Contents (Elt Ideal))
    (x7 : (⟨S128x256, .f32⟩ : BufTy).Contents (Elt Ideal)) (x8 : (⟨S128, .f32⟩ : BufTy).Contents (Elt Ideal))
    (x9 : (⟨S128x256, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) (g j : Fin 128) :
    val_main_v129 (F := Ideal) x0 x1 x2 x3 x4 x5 x6 x7 x8 x9 x10 x11 x12 (ix2 g j)
      = Cert.Spec.headRow (fun k => val_main_v111 (F := Ideal) x0 x1 x2 x3 x4 x5 x6 x7 x8 x9 x10 (ix2 g k))
          (fun j' k => x11 (ix2 j' k)) (fun j' => x12 (ix1 j')) j := by
  rw [val_main_v129_apply, act_at, len_at, Ideal.hostDivf_def]
  rfl

theorem refPool (x0 : (⟨S50000x128, .f32⟩ : BufTy).Contents (Elt Ideal)) (x1 : (⟨S2x600000, .i32⟩ : BufTy).Contents (Elt Ideal))
    (x2 : (⟨S50000, .i32⟩ : BufTy).Contents (Elt Ideal)) (x3 x4 x5 x6 : (⟨S128x128, .f32⟩ : BufTy).Contents (Elt Ideal))
    (x7 : (⟨S128x256, .f32⟩ : BufTy).Contents (Elt Ideal)) (x8 : (⟨S128, .f32⟩ : BufTy).Contents (Elt Ideal))
    (x9 : (⟨S128x256, .f32⟩ : BufTy).Contents (Elt Ideal)) (x10 : (⟨S128, .f32⟩ : BufTy).Contents (Elt Ideal)) (g j : Fin 128) :
    val_main_v111 (F := Ideal) x0 x1 x2 x3 x4 x5 x6 x7 x8 x9 x10 (ix2 g j)
      = Cert.Spec.pooled (fun r : Fin 50000 => x2 (ix1 r))
          (fun r j' => val_main_v108 (F := Ideal) x0 x1 x3 x4 x5 x6 x7 x8 x9 x10 (ix2 r j')) g j := by
  unfold val_main_v111
  generalize val_main_v108 (F := Ideal) x0 x1 x3 x4 x5 x6 x7 x8 x9 x10 = h
  simp only [Host.scatterAdd, Ideal.hostScatterAdd_def]
  rw [RowOps.scatterAdd_rows_apply scatter_S128x128_S50000x1_S50000x128_1_0_0_1 rfl rfl rfl rfl,
    val_main_v109_apply, val_main_cst_26_apply, Ideal.ofBits_def, Ideal.ofBits_zero_f32, zero_add]
  unfold Cert.Spec.pooled
  refine Finset.sum_congr rfl fun e _ => ?_
  simp only [val_main_v110_apply, idx110, toInt_eq_iff]

end Cert.ReferenceIdeal.RefVal

end
-- ==== Proof.KI.Final.lean ====
import proofs.«425038_j72541997629469_1_alg».proof.Proof.KI.Bounds
import proofs.«425038_j72541997629469_1_alg».proof.Proof.KI.BridgeA0
import proofs.«425038_j72541997629469_1_alg».proof.Proof.KI.BridgeB
import proofs.«425038_j72541997629469_1_alg».proof.Proof.Val0
import proofs.«425038_j72541997629469_1_alg».proof.Proof.Val1
import proofs.«425038_j72541997629469_1_alg».proof.Proof.Val2
import proofs.«425038_j72541997629469_1_alg».proof.Proof.Val3
import proofs.«425038_j72541997629469_1_alg».proof.Proof.RefPre
import proofs.«425038_j72541997629469_1_alg».proof.Proof.RefSage1
import proofs.«425038_j72541997629469_1_alg».proof.Proof.RefHead

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Cert.ReferenceIdeal.ReadP Cert.ReferenceIdeal.RefVal

variable (m : (ℓ : Loc nD τ sig) → Buf (Elt Ideal) ℓ) (c : Dev nD)

abbrev a0 : (⟨Cert.ReferenceIdeal.S50000x128, .f32⟩ : BufTy).Contents (Elt Ideal) := m ((c : Thread nD τ).loc main_arg0)
abbrev a1 : (⟨Cert.ReferenceIdeal.S2x600000, .i32⟩ : BufTy).Contents (Elt Ideal) := m ((c : Thread nD τ).loc main_arg1)
abbrev a2 : (⟨Cert.ReferenceIdeal.S50000, .i32⟩ : BufTy).Contents (Elt Ideal) := m ((c : Thread nD τ).loc main_arg2)
abbrev a3 : (⟨Cert.ReferenceIdeal.S128x128, .f32⟩ : BufTy).Contents (Elt Ideal) := m ((c : Thread nD τ).loc main_arg3)
abbrev a4 : (⟨Cert.ReferenceIdeal.S128x128, .f32⟩ : BufTy).Contents (Elt Ideal) := m ((c : Thread nD τ).loc main_arg4)
abbrev a5 : (⟨Cert.ReferenceIdeal.S128x128, .f32⟩ : BufTy).Contents (Elt Ideal) := m ((c : Thread nD τ).loc main_arg5)
abbrev a6 : (⟨Cert.ReferenceIdeal.S128x128, .f32⟩ : BufTy).Contents (Elt Ideal) := m ((c : Thread nD τ).loc main_arg6)
abbrev a7 : (⟨Cert.ReferenceIdeal.S128x256, .f32⟩ : BufTy).Contents (Elt Ideal) := m ((c : Thread nD τ).loc main_arg7)
abbrev a8 : (⟨Cert.ReferenceIdeal.S128, .f32⟩ : BufTy).Contents (Elt Ideal) := m ((c : Thread nD τ).loc main_arg8)
abbrev a9 : (⟨Cert.ReferenceIdeal.S128x256, .f32⟩ : BufTy).Contents (Elt Ideal) := m ((c : Thread nD τ).loc main_arg9)
abbrev a10 : (⟨Cert.ReferenceIdeal.S128, .f32⟩ : BufTy).Contents (Elt Ideal) := m ((c : Thread nD τ).loc main_arg10)
abbrev a11 : (⟨Cert.ReferenceIdeal.S128x128, .f32⟩ : BufTy).Contents (Elt Ideal) := m ((c : Thread nD τ).loc main_arg11)
abbrev a12 : (⟨Cert.ReferenceIdeal.S128, .f32⟩ : BufTy).Contents (Elt Ideal) := m ((c : Thread nD τ).loc main_arg12)

abbrev ref1 := val_main_v1 (F := Ideal) (a1 m c)
abbrev ref3 := val_main_v3 (F := Ideal) (a1 m c)
abbrev ref12 := val_main_v12 (F := Ideal) (a0 m c)
abbrev ref60 := val_main_v60 (F := Ideal) (a0 m c) (a1 m c) (a3 m c) (a4 m c) (a7 m c) (a8 m c)
abbrev ref108 := val_main_v108 (F := Ideal) (a0 m c) (a1 m c) (a3 m c) (a4 m c) (a5 m c) (a6 m c) (a7 m c) (a8 m c) (a9 m c) (a10 m c)
abbrev ref129 := val_main_v129 (F := Ideal) (a0 m c) (a1 m c) (a2 m c) (a3 m c) (a4 m c) (a5 m c) (a6 m c) (a7 m c) (a8 m c) (a9 m c) (a10 m c) (a11 m c) (a12 m c)

theorem B1_v4 : vr (B1 m) c main_v4 = (shapeCast S50000x1 (a2 m c) shapeCasts_S50000_S50000x1 : (⟨S50000x1, .i32⟩ : BufTy).Contents (Elt Ideal)) := st0_v4 (V0 m c)

theorem carry3 (r : Ref sig .tc) (h1 : r ∉ hostOps1_W := by decide) (h12 : r ≠ main_v12 := by decide) : vr (B3 m) c r = vr (B1 m) c r :=
  (keep1 m c r h1).trans (B2_ne m c r h12)
theorem carry5 (r : Ref sig .tc) (h1 : r ∉ hostOps1_W := by decide) (h2 : r ∉ hostOps2_W := by decide) (h12 : r ≠ main_v12 := by decide)
    (h34 : r ≠ main_v34 := by decide) :
    vr (B5 m) c r = vr (B1 m) c r :=
  (keep2 m c r h2).trans ((B4_ne m c r h34).trans (carry3 m c r h1 h12))
theorem carry6 (r : Ref sig .tc) (h1 : r ∉ hostOps1_W := by decide) (h2 : r ∉ hostOps2_W := by decide) (h12 : r ≠ main_v12 := by decide)
    (h34 : r ≠ main_v34 := by decide) (h47 : r ≠ main_v47 := by decide) :
    vr (B6 m) c r = vr (B1 m) c r :=
  (B6_ne m c r h47).trans (carry5 m c r h1 h2 h12 h34)

theorem o2_apply (r : Fin 50000) (j : Fin 128) : o2 m c (ix2 r j) = ref12 m c (ix2 r j) := by
  rw [o2_def]
  have h := Cert.KernelIdeal.Val.final0 (vr (B1 m)) c r j
  rw [keep0 m c main_arg0 (by decide)] at h
  exact h.trans (refXpre _ r j).symm

theorem o2_fun : (o2 m c : (⟨Cert.ReferenceIdeal.S50000x128, .f32⟩ : BufTy).Contents (Elt Ideal)) = ref12 m c :=
  funext fun i => by rw [eq_ix2 i]; exact o2_apply m c (i 0) (i 1)

theorem B2_v1 : vr (B2 m) c main_v1 = ref1 m c := (B2_ne m c main_v1 (by decide)).trans (st0_v1 (V0 m c))
theorem B2_v3 : vr (B2 m) c main_v3 = ref3 m c := (B2_ne m c main_v3 (by decide)).trans (st0_v3 (V0 m c))
theorem B2_v12 : (vr (B2 m) c main_v12 : (⟨Cert.ReferenceIdeal.S50000x128, .f32⟩ : BufTy).Contents (Elt Ideal)) = ref12 m c := (B2_out m c).trans (o2_fun m c)

theorem B3_v33_apply (r : Fin 50000) (k : Fin 128) :
    vr (B3 m) c main_v33 (ix2 r k) = val_main_v31 (F := Ideal) (a0 m c) (a1 m c) (ix2 r k) := by
  have e : vr (B3 m) c main_v33 = scaleK (F := Ideal) (msumK (ref12 m c) (ref1 m c) (ref3 m c)) (cinvK (ref3 m c)) := by
    refine (st1_v33 (B2 m c)).trans ?_
    rw [show B2 m c (Proc.devRef .tc main_v12) = ref12 m c from B2_v12 m c,
      show B2 m c (Proc.devRef .tc main_v1) = ref1 m c from B2_v1 m c,
      show B2 m c (Proc.devRef .tc main_v3) = ref3 m c from B2_v3 m c]
  rw [e]; exact mean1_apply _ _ r k

theorem B3_v21 : vr (B3 m) c main_v21 = cinvK (F := Ideal) (ref3 m c) := by
  refine (st1_v21 (B2 m c)).trans ?_
  rw [show B2 m c (Proc.devRef .tc main_v3) = ref3 m c from B2_v3 m c]

theorem o4_apply (r : Fin 50000) (j : Fin 128) :
    o4 m c (ix2 r j) = ref60 m c (ix2 r j) := by
  rw [o4_def]
  have h := Cert.KernelIdeal.Val.final1 (vr (B3 m)) c r j
  have e1 : (fun k => vr (B3 m) c main_v33 (ix2 r k)) = fun k => val_main_v31 (F := Ideal) (a0 m c) (a1 m c) (ix2 r k) :=
    funext fun k => B3_v33_apply m c r k
  have e2 : (fun k => vr (B3 m) c main_v12 (ix2 r k)) = fun k => ref12 m c (ix2 r k) :=
    funext fun k => by rw [keep1 m c main_v12 (by decide)]; exact congrFun (B2_v12 m c) (ix2 r k)
  have e3 : (fun j' k => vr (B3 m) c main_v5 (ix2 j' k)) = fun (j' : Fin 128) (k : Fin 128) => a3 m c (ix2 j' k) :=
    funext fun j' => funext fun k => by rw [carry3 m c main_v5]; exact congrFun (st0_v5 (V0 m c)) (ix2 j' k)
  have e4 : (fun j' k => vr (B3 m) c main_v6 (ix2 j' k)) = fun (j' : Fin 128) (k : Fin 128) => a4 m c (ix2 j' k) :=
    funext fun j' => funext fun k => by rw [carry3 m c main_v6]; exact congrFun (st0_v6 (V0 m c)) (ix2 j' k)
  have e5 : (fun j' k => vr (B3 m) c main_v9 (ix2 j' k)) = fun (j' : Fin 128) (k : Fin 256) => a7 m c (ix2 j' k) :=
    funext fun j' => funext fun k => by rw [carry3 m c main_v9]; exact congrFun (st0_v9 (V0 m c)) (ix2 j' k)
  have e6 : (fun j' => vr (B3 m) c main_arg8 (ix1 j')) = fun (j' : Fin 128) => a8 m c (ix1 j') :=
    funext fun j' => by rw [carry3 m c main_arg8, keep0 m c main_arg8 (by decide)]
  rw [e1, e2, e3, e4, e5, e6] at h
  exact h.trans (refLayer1 _ _ _ _ _ _ r j).symm

theorem o4_fun : (o4 m c : (⟨Cert.ReferenceIdeal.S50000x128, .f32⟩ : BufTy).Contents (Elt Ideal)) = ref60 m c :=
  funext fun i => by rw [eq_ix2 i]; exact o4_apply m c (i 0) (i 1)

theorem B4_v34 : (vr (B4 m) c main_v34 : (⟨Cert.ReferenceIdeal.S50000x128, .f32⟩ : BufTy).Contents (Elt Ideal)) = ref60 m c :=
  (B4_out m c).trans (o4_fun m c)
theorem B4_v1 : vr (B4 m) c main_v1 = ref1 m c :=
  (B4_ne m c main_v1 (by decide)).trans ((keep1 m c main_v1 (by decide)).trans (B2_v1 m c))
theorem B4_v3 : vr (B4 m) c main_v3 = ref3 m c :=
  (B4_ne m c main_v3 (by decide)).trans ((keep1 m c main_v3 (by decide)).trans (B2_v3 m c))
theorem B4_v21 : vr (B4 m) c main_v21 = cinvK (F := Ideal) (ref3 m c) :=
  (B4_ne m c main_v21 (by decide)).trans (B3_v21 m c)

theorem B5_v46_apply (r : Fin 50000) (k : Fin 128) :
    vr (B5 m) c main_v46 (ix2 r k) = val_main_v79 (F := Ideal) (a0 m c) (a1 m c) (a3 m c) (a4 m c) (a7 m c) (a8 m c) (ix2 r k) := by
  have e : vr (B5 m) c main_v46 = scaleK (F := Ideal) (msumK (ref60 m c) (ref1 m c) (ref3 m c)) (cinvK (ref3 m c)) := by
    refine (st2_v46 (B4 m c)).trans ?_
    rw [show B4 m c (Proc.devRef .tc main_v34) = ref60 m c from B4_v34 m c,
      show B4 m c (Proc.devRef .tc main_v1) = ref1 m c from B4_v1 m c,
      show B4 m c (Proc.devRef .tc main_v3) = ref3 m c from B4_v3 m c,
      show B4 m c (Proc.devRef .tc main_v21) = cinvK (F := Ideal) (ref3 m c) from B4_v21 m c]
  rw [e]; exact mean2_apply _ _ _ _ _ _ r k

theorem o6_apply (r : Fin 50000) (j : Fin 128) :
    o6 m c (ix2 r j) = ref108 m c (ix2 r j) := by
  rw [o6_def]
  have h := Cert.KernelIdeal.Val.final2 (vr (B5 m)) c r j
  have e1 : (fun k => vr (B5 m) c main_v46 (ix2 r k)) = fun k => val_main_v79 (F := Ideal) (a0 m c) (a1 m c) (a3 m c) (a4 m c) (a7 m c) (a8 m c) (ix2 r k) :=
    funext fun k => B5_v46_apply m c r k
  have e2 : (fun k => vr (B5 m) c main_v34 (ix2 r k)) = fun k => ref60 m c (ix2 r k) :=
    funext fun k => by rw [keep2 m c main_v34 (by decide)]; exact congrFun (B4_v34 m c) (ix2 r k)
  have e3 : (fun j' k => vr (B5 m) c main_v7 (ix2 j' k)) = fun (j' : Fin 128) (k : Fin 128) => a5 m c (ix2 j' k) :=
    funext fun j' => funext fun k => by rw [carry5 m c main_v7]; exact congrFun (st0_v7 (V0 m c)) (ix2 j' k)
  have e4 : (fun j' k => vr (B5 m) c main_v8 (ix2 j' k)) = fun (j' : Fin 128) (k : Fin 128) => a6 m c (ix2 j' k) :=
    funext fun j' => funext fun k => by rw [carry5 m c main_v8]; exact congrFun (st0_v8 (V0 m c)) (ix2 j' k)
  have e5 : (fun j' k => vr (B5 m) c main_v10 (ix2 j' k)) = fun (j' : Fin 128) (k : Fin 256) => a9 m c (ix2 j' k) :=
    funext fun j' => funext fun k => by rw [carry5 m c main_v10]; exact congrFun (st0_v10 (V0 m c)) (ix2 j' k)
  have e6 : (fun j' => vr (B5 m) c main_arg10 (ix1 j')) = fun (j' : Fin 128) => a10 m c (ix1 j') :=
    funext fun j' => by rw [carry5 m c main_arg10, keep0 m c main_arg10 (by decide)]
  rw [e1, e2, e3, e4, e5, e6] at h
  exact h.trans (refLayer2 _ _ _ _ _ _ _ _ _ _ r j).symm

theorem B6_v4_apply (r : Fin 50000) : vr (B6 m) c main_v4 (ix2 r (0 : Fin 1)) = a2 m c (ix1 r) := by
  rw [carry6 m c main_v4, B1_v4]
  exact Cert.KernelIdeal.Val.shapeCast_a_a1_apply (a2 m c) shapeCasts_S50000_S50000x1 r 0

theorem o7_apply (g j : Fin 128) :
    o7 m c (ix2 g j) = ref129 m c (ix2 g j) := by
  rw [o7_def]
  have h := Cert.KernelIdeal.Val.final3 (vr (B6 m)) c g j
  have e1 : (fun r : Fin 50000 => vr (B6 m) c main_v4 (ix2 r (0 : Fin 1))) = fun r => a2 m c (ix1 r) := funext fun r => B6_v4_apply m c r
  have e2 : (fun (r : Fin 50000) (j' : Fin 128) => vr (B6 m) c main_v47 (ix2 r j'))
      = fun r j' => ref108 m c (ix2 r j') :=
    funext fun r => funext fun j' => ((congrFun (B6_out m c) (ix2 r j')).trans (o6_apply m c r j'))
  have e3 : (fun j' k => vr (B6 m) c main_v11 (ix2 j' k)) = fun (j' : Fin 128) (k : Fin 128) => a11 m c (ix2 j' k) :=
    funext fun j' => funext fun k => by rw [carry6 m c main_v11]; exact congrFun (st0_v11 (V0 m c)) (ix2 j' k)
  have e4 : (fun j' => vr (B6 m) c main_arg12 (ix1 j')) = fun (j' : Fin 128) => a12 m c (ix1 j') :=
    funext fun j' => by rw [carry6 m c main_arg12, keep0 m c main_arg12 (by decide)]
  rw [e1, e2, e3, e4] at h
  have ep : (fun k => Cert.Spec.pooled (fun r : Fin 50000 => a2 m c (ix1 r))
        (fun r j' => ref108 m c (ix2 r j')) g k)
      = fun k => val_main_v111 (F := Ideal) (a0 m c) (a1 m c) (a2 m c) (a3 m c) (a4 m c) (a5 m c) (a6 m c) (a7 m c) (a8 m c) (a9 m c) (a10 m c) (ix2 g k) :=
    funext fun k => (refPool _ _ _ _ _ _ _ _ _ _ _ g k).symm
  rw [ep] at h
  exact h.trans (refHead _ _ _ _ _ _ _ _ _ _ _ _ _ g j).symm

theorem result_eq : (o7 m c : (⟨Cert.ReferenceIdeal.S128x128, .f32⟩ : BufTy).Contents (Elt Ideal))
    = ref129 m c :=
  funext fun i => by rw [eq_ix2 i]; exact o7_apply m c (i 0) (i 1)

end Cert.KernelIdeal.Hand

end
-- ==== Proof.RefRun.lean ====
import proofs.«425038_j72541997629469_1_alg».proof.Proof.Gen.ReferenceIdeal
import proofs.«425038_j72541997629469_1_alg».proof.Proof.RefRead
import Idealize.ShloMosaic.Lib.StableHlo.Run
import Idealize.ShloMosaic.Lib.Pipeline.Frame
import Mathlib.Data.List.Basic

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

abbrev s0 : List (HloOp τ sig (Elt F)) :=
  [ unary main_arg1 main_v0 (extractStridedSlice S1x600000 ![0, 0] · slices_S2x600000_S1x600000_0_0),
    reshape main_v0 main_v1 rfl shapeCasts_S1x600000_S600000,
    unary main_arg1 main_v2 (extractStridedSlice S1x600000 ![1, 0] · slices_S2x600000_S1x600000_1_0),
    reshape main_v2 main_v3 rfl shapeCasts_S1x600000_S600000 ]

abbrev s0_W : List (Ref sig .tc) := [main_v0, main_v1, main_v2, main_v3]

abbrev s1 : List (HloOp τ sig (Elt F)) :=
  [ nullary main_cst (constant S_ .f32 0x00000000#32),
    binary main_arg0 main_cst main_v4 (fun x v => Host.reduceAdd x v reducesTo_S50000x128_S50000_d1 h_S_) ]

abbrev s1_W : List (Ref sig .tc) := [main_cst, main_v4]

abbrev s2 : List (HloOp τ sig (Elt F)) :=
  [ nullary main_cst_0 (constant S_ .f32 0x00000000#32),
    unary main_cst_0 main_v5 (broadcastInDim S50000 ![] bcast_S_S50000),
    binary main_v4 main_v5 main_v6 (cmpf .oeq),
    nullary main_cst_1 (constant S_ .f32 0x3F800000#32),
    unary main_cst_1 main_v7 (broadcastInDim S50000 ![] bcast_S_S50000),
    binary main_v7 main_v4 main_v8 (Host.divf),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v6) (TRef.of (T := ⟨S50000, .f32⟩) main_call0_v1) (TRef.of (T := ⟨S50000, .f32⟩) main_v8) (TRef.of (T := ⟨S50000, .f32⟩) main_v9) select,
    unary main_v9 main_v10 (broadcastInDim S50000x1 ![0] bcast_S50000_S50000x1_0),
    unary main_v10 main_v11 (broadcastInDim S50000x128 ![0, 1] bcast_S50000x1_S50000x128_0_1),
    binary main_arg0 main_v11 main_v12 (mulf) ]

abbrev s2_W : List (Ref sig .tc) := [main_cst_0, main_v5, main_v6, main_cst_1, main_v7, main_v8, main_cst_2, main_call0_v0, main_call0_v1, main_v9, main_v10, main_v11, main_v12]

abbrev s3 : List (HloOp τ sig (Elt F)) :=
  [ nullary main_c (constantI S_ 32 0#32),
    unary main_c main_v13 (broadcastInDim S600000 ![] bcast_S_S600000),
    binary main_v1 main_v13 main_v14 (cmpi .slt),
    nullary main_c_3 (constantI S_ 32 50000#32),
    unary main_c_3 main_v15 (broadcastInDim S600000 ![] bcast_S_S600000),
    binary main_v1 main_v15 main_v16 (addi),
    ternary main_v14 main_v16 main_v1 main_v17 (select),
    unary main_v17 main_v18 (broadcastInDim S600000x1 ![0] bcast_S600000_S600000x1_0),
    binary main_v12 main_v18 main_v19 (fun x i => Host.gather gather_S50000x128_S600000x1_S600000x128_1_0_n_n_0_1_1128 x i),
    nullary main_cst_4 (constant S_ .f32 0x00000000#32),
    unary main_cst_4 main_v20 (broadcastInDim S50000x128 ![] bcast_S_S50000x128),
    unary main_v3 main_v21 (broadcastInDim S600000x1 ![0] bcast_S600000_S600000x1_0),
    ternary main_v20 main_v21 main_v19 main_v22 (fun x i u => Host.scatterAdd scatter_S50000x128_S600000x1_S600000x128_1_0_0_1 x i u),
    nullary main_cst_5 (constant S_ .f32 0x3F800000#32),
    unary main_cst_5 main_v23 (broadcastInDim S600000 ![] bcast_S_S600000),
    nullary main_cst_6 (constant S_ .f32 0x00000000#32),
    unary main_cst_6 main_v24 (broadcastInDim S50000 ![] bcast_S_S50000),
    unary main_v3 main_v25 (broadcastInDim S600000x1 ![0] bcast_S600000_S600000x1_0),
    ternary main_v24 main_v25 main_v23 main_v26 (fun x i u => Host.scatterAdd scatter_S50000_S600000x1_S600000_n_0_0_1 x i u),
    nullary main_cst_7 (constant S_ .f32 0x3F800000#32),
    unary main_cst_7 main_v27 (broadcastInDim S50000 ![] bcast_S_S50000),
    binary main_v26 main_v27 main_v28 (maximumf),
    unary main_v28 main_v29 (broadcastInDim S50000x1 ![0] bcast_S50000_S50000x1_0),
    unary main_v29 main_v30 (broadcastInDim S50000x128 ![0, 1] bcast_S50000x1_S50000x128_0_1),
    binary main_v22 main_v30 main_v31 (Host.divf),
    unary main_arg3 main_v32 (transpose S128x128 [1, 0] · transposes_S128x128_S128x128_1_0),
    binary main_v31 main_v32 main_v33 (fun l r => Host.dotGeneral dot_S50000x128_S128x128_S50000x128_1_0_0_1_n_n none l r),
    unary main_arg4 main_v34 (transpose S128x128 [1, 0] · transposes_S128x128_S128x128_1_0),
    binary main_v12 main_v34 main_v35 (fun l r => Host.dotGeneral dot_S50000x128_S128x128_S50000x128_1_0_0_1_n_n none l r),
    binary main_v33 main_v35 main_v36 (addf) ]

abbrev s3_W : List (Ref sig .tc) := [main_c, main_v13, main_v14, main_c_3, main_v15, main_v16, main_v17, main_v18, main_v19, main_cst_4, main_v20, main_v21, main_v22, main_cst_5, main_v23, main_cst_6, main_v24, main_v25, main_v26, main_cst_7, main_v27, main_v28, main_v29, main_v30, main_v31, main_v32, main_v33, main_v34, main_v35, main_v36]

abbrev s4 : List (HloOp τ sig (Elt F)) :=
  [ binary main_v36 main_v36 main_v37 (mulf),
    nullary main_cst_8 (constant S_ .f32 0x00000000#32),
    binary main_v37 main_cst_8 main_v38 (fun x v => Host.reduceAdd x v reducesTo_S50000x128_S50000_d1 h_S_),
    unary main_v38 main_v39 (broadcastInDim S50000x1 ![0] bcast_S50000_S50000x1_0),
    unary main_v39 main_v40 (Host.sqrt),
    nullary main_cst_9 (constant S_ .f32 0x2B8CBCCC#32),
    unary main_cst_9 main_v41 (broadcastInDim S50000x1 ![] bcast_S_S50000x1),
    binary main_v40 main_v41 main_v42 (maximumf),
    unary main_v42 main_v43 (broadcastInDim S50000x128 ![0, 1] bcast_S50000x1_S50000x128_0_1),
    binary main_v36 main_v43 main_v44 (Host.divf) ]

abbrev s4_W : List (Ref sig .tc) := [main_v37, main_cst_8, main_v38, main_v39, main_v40, main_cst_9, main_v41, main_v42, main_v43, main_v44]

abbrev s5 : List (HloOp τ sig (Elt F)) :=
  [ nullary main_cst_10 (constant S_ .f32 0x00000000#32),
    unary main_cst_10 main_v45 (broadcastInDim S50000x128 ![] bcast_S_S50000x128),
    binary main_v44 main_v45 main_v46 (cmpf .oge) ]

abbrev s5_W : List (Ref sig .tc) := [main_cst_10, main_v45, main_v46]

abbrev s6 : List (HloOp τ sig (Elt F)) :=
  [ nullary main_cst_11 (constant S_ .f32 0x3C23D70A#32),
    unary main_cst_11 main_v47 (broadcastInDim S50000x128 ![] bcast_S_S50000x128),
    binary main_v47 main_v44 main_v48 (mulf),
    TRef.ternary (TRef.of (T := ⟨S50000x128, .i1⟩) main_v46) (TRef.of (T := ⟨S50000x128, .f32⟩) main_v44) (TRef.of (T := ⟨S50000x128, .f32⟩) main_v48) (TRef.of (T := ⟨S50000x128, .f32⟩) main_v49) select ]

abbrev s6_W : List (Ref sig .tc) := [main_cst_11, main_v47, main_v48, main_v49]

abbrev s7 : List (HloOp τ sig (Elt F)) :=
  [ binary main_v49 main_v12 main_v50 (fun a b => concatenate S50000x256 1 [⟨S50000x128, a⟩, ⟨S50000x128, b⟩] concatenates_S50000x128_S50000x128_S50000x256_d1),
    unary main_arg7 main_v51 (transpose S256x128 [1, 0] · transposes_S128x256_S256x128_1_0),
    binary main_v50 main_v51 main_v52 (fun l r => Host.dotGeneral dot_S50000x256_S256x128_S50000x128_1_0_0_1_n_n none l r),
    unary main_arg8 main_v53 (broadcastInDim S1x128 ![1] bcast_S128_S1x128_1),
    unary main_v53 main_v54 (broadcastInDim S50000x128 ![0, 1] bcast_S1x128_S50000x128_0_1),
    binary main_v52 main_v54 main_v55 (addf) ]

abbrev s7_W : List (Ref sig .tc) := [main_v50, main_v51, main_v52, main_v53, main_v54, main_v55]

abbrev s8 : List (HloOp τ sig (Elt F)) :=
  [ nullary main_cst_12 (constant S_ .f32 0x00000000#32),
    unary main_cst_12 main_v56 (broadcastInDim S50000x128 ![] bcast_S_S50000x128),
    binary main_v55 main_v56 main_v57 (cmpf .oge),
    nullary main_cst_13 (constant S_ .f32 0x3C23D70A#32),
    unary main_cst_13 main_v58 (broadcastInDim S50000x128 ![] bcast_S_S50000x128),
    binary main_v58 main_v55 main_v59 (mulf),
    TRef.ternary (TRef.of (T := ⟨S50000x128, .i1⟩) main_v57) (TRef.of (T := ⟨S50000x128, .f32⟩) main_v55) (TRef.of (T := ⟨S50000x128, .f32⟩) main_v59) (TRef.of (T := ⟨S50000x128, .f32⟩) main_v60) select ]

abbrev s8_W : List (Ref sig .tc) := [main_cst_12, main_v56, main_v57, main_cst_13, main_v58, main_v59, main_v60]

abbrev s9 : List (HloOp τ sig (Elt F)) :=
  [ nullary main_c_14 (constantI S_ 32 0#32),
    unary main_c_14 main_v61 (broadcastInDim S600000 ![] bcast_S_S600000),
    binary main_v1 main_v61 main_v62 (cmpi .slt),
    nullary main_c_15 (constantI S_ 32 50000#32),
    unary main_c_15 main_v63 (broadcastInDim S600000 ![] bcast_S_S600000),
    binary main_v1 main_v63 main_v64 (addi),
    ternary main_v62 main_v64 main_v1 main_v65 (select),
    unary main_v65 main_v66 (broadcastInDim S600000x1 ![0] bcast_S600000_S600000x1_0),
    binary main_v60 main_v66 main_v67 (fun x i => Host.gather gather_S50000x128_S600000x1_S600000x128_1_0_n_n_0_1_1128 x i),
    nullary main_cst_16 (constant S_ .f32 0x00000000#32),
    unary main_cst_16 main_v68 (broadcastInDim S50000x128 ![] bcast_S_S50000x128),
    unary main_v3 main_v69 (broadcastInDim S600000x1 ![0] bcast_S600000_S600000x1_0),
    ternary main_v68 main_v69 main_v67 main_v70 (fun x i u => Host.scatterAdd scatter_S50000x128_S600000x1_S600000x128_1_0_0_1 x i u),
    nullary main_cst_17 (constant S_ .f32 0x3F800000#32),
    unary main_cst_17 main_v71 (broadcastInDim S600000 ![] bcast_S_S600000),
    nullary main_cst_18 (constant S_ .f32 0x00000000#32),
    unary main_cst_18 main_v72 (broadcastInDim S50000 ![] bcast_S_S50000),
    unary main_v3 main_v73 (broadcastInDim S600000x1 ![0] bcast_S600000_S600000x1_0),
    ternary main_v72 main_v73 main_v71 main_v74 (fun x i u => Host.scatterAdd scatter_S50000_S600000x1_S600000_n_0_0_1 x i u),
    nullary main_cst_19 (constant S_ .f32 0x3F800000#32),
    unary main_cst_19 main_v75 (broadcastInDim S50000 ![] bcast_S_S50000),
    binary main_v74 main_v75 main_v76 (maximumf),
    unary main_v76 main_v77 (broadcastInDim S50000x1 ![0] bcast_S50000_S50000x1_0),
    unary main_v77 main_v78 (broadcastInDim S50000x128 ![0, 1] bcast_S50000x1_S50000x128_0_1),
    binary main_v70 main_v78 main_v79 (Host.divf),
    unary main_arg5 main_v80 (transpose S128x128 [1, 0] · transposes_S128x128_S128x128_1_0),
    binary main_v79 main_v80 main_v81 (fun l r => Host.dotGeneral dot_S50000x128_S128x128_S50000x128_1_0_0_1_n_n none l r),
    unary main_arg6 main_v82 (transpose S128x128 [1, 0] · transposes_S128x128_S128x128_1_0),
    binary main_v60 main_v82 main_v83 (fun l r => Host.dotGeneral dot_S50000x128_S128x128_S50000x128_1_0_0_1_n_n none l r),
    binary main_v81 main_v83 main_v84 (addf) ]

abbrev s9_W : List (Ref sig .tc) := [main_c_14, main_v61, main_v62, main_c_15, main_v63, main_v64, main_v65, main_v66, main_v67, main_cst_16, main_v68, main_v69, main_v70, main_cst_17, main_v71, main_cst_18, main_v72, main_v73, main_v74, main_cst_19, main_v75, main_v76, main_v77, main_v78, main_v79, main_v80, main_v81, main_v82, main_v83, main_v84]

abbrev s10 : List (HloOp τ sig (Elt F)) :=
  [ binary main_v84 main_v84 main_v85 (mulf),
    nullary main_cst_20 (constant S_ .f32 0x00000000#32),
    binary main_v85 main_cst_20 main_v86 (fun x v => Host.reduceAdd x v reducesTo_S50000x128_S50000_d1 h_S_),
    unary main_v86 main_v87 (broadcastInDim S50000x1 ![0] bcast_S50000_S50000x1_0),
    unary main_v87 main_v88 (Host.sqrt),
    nullary main_cst_21 (constant S_ .f32 0x2B8CBCCC#32),
    unary main_cst_21 main_v89 (broadcastInDim S50000x1 ![] bcast_S_S50000x1),
    binary main_v88 main_v89 main_v90 (maximumf),
    unary main_v90 main_v91 (broadcastInDim S50000x128 ![0, 1] bcast_S50000x1_S50000x128_0_1),
    binary main_v84 main_v91 main_v92 (Host.divf) ]

abbrev s10_W : List (Ref sig .tc) := [main_v85, main_cst_20, main_v86, main_v87, main_v88, main_cst_21, main_v89, main_v90, main_v91, main_v92]

abbrev s11 : List (HloOp τ sig (Elt F)) :=
  [ nullary main_cst_22 (constant S_ .f32 0x00000000#32),
    unary main_cst_22 main_v93 (broadcastInDim S50000x128 ![] bcast_S_S50000x128),
    binary main_v92 main_v93 main_v94 (cmpf .oge) ]

abbrev s11_W : List (Ref sig .tc) := [main_cst_22, main_v93, main_v94]

abbrev s12 : List (HloOp τ sig (Elt F)) :=
  [ nullary main_cst_23 (constant S_ .f32 0x3C23D70A#32),
    unary main_cst_23 main_v95 (broadcastInDim S50000x128 ![] bcast_S_S50000x128),
    binary main_v95 main_v92 main_v96 (mulf),
    TRef.ternary (TRef.of (T := ⟨S50000x128, .i1⟩) main_v94) (TRef.of (T := ⟨S50000x128, .f32⟩) main_v92) (TRef.of (T := ⟨S50000x128, .f32⟩) main_v96) (TRef.of (T := ⟨S50000x128, .f32⟩) main_v97) select ]

abbrev s12_W : List (Ref sig .tc) := [main_cst_23, main_v95, main_v96, main_v97]

abbrev s13 : List (HloOp τ sig (Elt F)) :=
  [ binary main_v97 main_v60 main_v98 (fun a b => concatenate S50000x256 1 [⟨S50000x128, a⟩, ⟨S50000x128, b⟩] concatenates_S50000x128_S50000x128_S50000x256_d1),
    unary main_arg9 main_v99 (transpose S256x128 [1, 0] · transposes_S128x256_S256x128_1_0),
    binary main_v98 main_v99 main_v100 (fun l r => Host.dotGeneral dot_S50000x256_S256x128_S50000x128_1_0_0_1_n_n none l r),
    unary main_arg10 main_v101 (broadcastInDim S1x128 ![1] bcast_S128_S1x128_1),
    unary main_v101 main_v102 (broadcastInDim S50000x128 ![0, 1] bcast_S1x128_S50000x128_0_1),
    binary main_v100 main_v102 main_v103 (addf) ]

abbrev s13_W : List (Ref sig .tc) := [main_v98, main_v99, main_v100, main_v101, main_v102, main_v103]

abbrev s14 : List (HloOp τ sig (Elt F)) :=
  [ nullary main_cst_24 (constant S_ .f32 0x00000000#32),
    unary main_cst_24 main_v104 (broadcastInDim S50000x128 ![] bcast_S_S50000x128),
    binary main_v103 main_v104 main_v105 (cmpf .oge),
    nullary main_cst_25 (constant S_ .f32 0x3C23D70A#32),
    unary main_cst_25 main_v106 (broadcastInDim S50000x128 ![] bcast_S_S50000x128),
    binary main_v106 main_v103 main_v107 (mulf),
    TRef.ternary (TRef.of (T := ⟨S50000x128, .i1⟩) main_v105) (TRef.of (T := ⟨S50000x128, .f32⟩) main_v103) (TRef.of (T := ⟨S50000x128, .f32⟩) main_v107) (TRef.of (T := ⟨S50000x128, .f32⟩) main_v108) select ]

abbrev s14_W : List (Ref sig .tc) := [main_cst_24, main_v104, main_v105, main_cst_25, main_v106, main_v107, main_v108]

abbrev s15 : List (HloOp τ sig (Elt F)) :=
  [ nullary main_cst_26 (constant S_ .f32 0x00000000#32),
    unary main_cst_26 main_v109 (broadcastInDim S128x128 ![] bcast_S_S128x128),
    unary main_arg2 main_v110 (broadcastInDim S50000x1 ![0] bcast_S50000_S50000x1_0),
    ternary main_v109 main_v110 main_v108 main_v111 (fun x i u => Host.scatterAdd scatter_S128x128_S50000x1_S50000x128_1_0_0_1 x i u),
    unary main_arg11 main_v112 (transpose S128x128 [1, 0] · transposes_S128x128_S128x128_1_0),
    binary main_v111 main_v112 main_v113 (fun l r => Host.dotGeneral dot_S128x128_S128x128_S128x128_1_0_0_1_n_n none l r),
    unary main_arg12 main_v114 (broadcastInDim S1x128 ![1] bcast_S128_S1x128_1),
    unary main_v114 main_v115 (broadcastInDim S128x128 ![0, 1] bcast_S1x128_S128x128_0_1),
    binary main_v113 main_v115 main_v116 (addf) ]

abbrev s15_W : List (Ref sig .tc) := [main_cst_26, main_v109, main_v110, main_v111, main_v112, main_v113, main_v114, main_v115, main_v116]

abbrev s16 : List (HloOp τ sig (Elt F)) :=
  [ nullary main_cst_27 (constant S_ .f32 0x00000000#32),
    unary main_cst_27 main_v117 (broadcastInDim S128x128 ![] bcast_S_S128x128),
    binary main_v116 main_v117 main_v118 (cmpf .oge),
    nullary main_cst_28 (constant S_ .f32 0x3C23D70A#32),
    unary main_cst_28 main_v119 (broadcastInDim S128x128 ![] bcast_S_S128x128),
    binary main_v119 main_v116 main_v120 (mulf),
    TRef.ternary (TRef.of (T := ⟨S128x128, .i1⟩) main_v118) (TRef.of (T := ⟨S128x128, .f32⟩) main_v116) (TRef.of (T := ⟨S128x128, .f32⟩) main_v120) (TRef.of (T := ⟨S128x128, .f32⟩) main_v121) select ]

abbrev s16_W : List (Ref sig .tc) := [main_cst_27, main_v117, main_v118, main_cst_28, main_v119, main_v120, main_v121]

abbrev s17 : List (HloOp τ sig (Elt F)) :=
  [ binary main_v121 main_v121 main_v122 (mulf),
    nullary main_cst_29 (constant S_ .f32 0x00000000#32),
    binary main_v122 main_cst_29 main_v123 (fun x v => Host.reduceAdd x v reducesTo_S128x128_S128_d1 h_S_),
    unary main_v123 main_v124 (broadcastInDim S128x1 ![0] bcast_S128_S128x1_0),
    unary main_v124 main_v125 (Host.sqrt),
    nullary main_cst_30 (constant S_ .f32 0x2B8CBCCC#32),
    unary main_cst_30 main_v126 (broadcastInDim S128x1 ![] bcast_S_S128x1),
    binary main_v125 main_v126 main_v127 (maximumf),
    unary main_v127 main_v128 (broadcastInDim S128x128 ![0, 1] bcast_S128x1_S128x128_0_1),
    binary main_v121 main_v128 main_v129 (Host.divf) ]

abbrev s17_W : List (Ref sig .tc) := [main_v122, main_cst_29, main_v123, main_v124, main_v125, main_cst_30, main_v126, main_v127, main_v128, main_v129]

abbrev argRefs : List (Ref sig .tc) :=
  [main_arg0, main_arg1, main_arg2, main_arg3, main_arg4, main_arg5, main_arg6, main_arg7, main_arg8, main_arg9, main_arg10, main_arg11, main_arg12]

local macro "stretch_writes" : tactic =>
  `(tactic| (simp only [List.Forall]
             repeat' apply And.intro
             all_goals (simp only [nullary_writes, unary_writes, binary_writes, ternary_writes, reshape_writes,
                          Finset.singleton_subset_iff, List.mem_toFinset]
                        exact List.mem_map_of_mem (by decide))))

theorem s0_writes : (s0 : List (HloOp τ sig (Elt F))).Forall fun op => op.writes ⊆ (s0_W.map (Proc.devRef (τ := τ) .tc)).toFinset := by stretch_writes

theorem s1_writes : (s1 : List (HloOp τ sig (Elt F))).Forall fun op => op.writes ⊆ (s1_W.map (Proc.devRef (τ := τ) .tc)).toFinset := by stretch_writes

theorem s2_writes : (s2 : List (HloOp τ sig (Elt F))).Forall fun op => op.writes ⊆ (s2_W.map (Proc.devRef (τ := τ) .tc)).toFinset := by stretch_writes

theorem s3_writes : (s3 : List (HloOp τ sig (Elt F))).Forall fun op => op.writes ⊆ (s3_W.map (Proc.devRef (τ := τ) .tc)).toFinset := by stretch_writes

theorem s4_writes : (s4 : List (HloOp τ sig (Elt F))).Forall fun op => op.writes ⊆ (s4_W.map (Proc.devRef (τ := τ) .tc)).toFinset := by stretch_writes

theorem s5_writes : (s5 : List (HloOp τ sig (Elt F))).Forall fun op => op.writes ⊆ (s5_W.map (Proc.devRef (τ := τ) .tc)).toFinset := by stretch_writes

theorem s6_writes : (s6 : List (HloOp τ sig (Elt F))).Forall fun op => op.writes ⊆ (s6_W.map (Proc.devRef (τ := τ) .tc)).toFinset := by stretch_writes

theorem s7_writes : (s7 : List (HloOp τ sig (Elt F))).Forall fun op => op.writes ⊆ (s7_W.map (Proc.devRef (τ := τ) .tc)).toFinset := by stretch_writes

theorem s8_writes : (s8 : List (HloOp τ sig (Elt F))).Forall fun op => op.writes ⊆ (s8_W.map (Proc.devRef (τ := τ) .tc)).toFinset := by stretch_writes

theorem s9_writes : (s9 : List (HloOp τ sig (Elt F))).Forall fun op => op.writes ⊆ (s9_W.map (Proc.devRef (τ := τ) .tc)).toFinset := by stretch_writes

theorem s10_writes : (s10 : List (HloOp τ sig (Elt F))).Forall fun op => op.writes ⊆ (s10_W.map (Proc.devRef (τ := τ) .tc)).toFinset := by stretch_writes

theorem s11_writes : (s11 : List (HloOp τ sig (Elt F))).Forall fun op => op.writes ⊆ (s11_W.map (Proc.devRef (τ := τ) .tc)).toFinset := by stretch_writes

theorem s12_writes : (s12 : List (HloOp τ sig (Elt F))).Forall fun op => op.writes ⊆ (s12_W.map (Proc.devRef (τ := τ) .tc)).toFinset := by stretch_writes

theorem s13_writes : (s13 : List (HloOp τ sig (Elt F))).Forall fun op => op.writes ⊆ (s13_W.map (Proc.devRef (τ := τ) .tc)).toFinset := by stretch_writes

theorem s14_writes : (s14 : List (HloOp τ sig (Elt F))).Forall fun op => op.writes ⊆ (s14_W.map (Proc.devRef (τ := τ) .tc)).toFinset := by stretch_writes

theorem s15_writes : (s15 : List (HloOp τ sig (Elt F))).Forall fun op => op.writes ⊆ (s15_W.map (Proc.devRef (τ := τ) .tc)).toFinset := by stretch_writes

theorem s16_writes : (s16 : List (HloOp τ sig (Elt F))).Forall fun op => op.writes ⊆ (s16_W.map (Proc.devRef (τ := τ) .tc)).toFinset := by stretch_writes

theorem s17_writes : (s17 : List (HloOp τ sig (Elt F))).Forall fun op => op.writes ⊆ (s17_W.map (Proc.devRef (τ := τ) .tc)).toFinset := by stretch_writes

section Values

variable {x0 : (⟨S50000x128, .f32⟩ : BufTy).Contents (Elt F)} {x1 : (⟨S2x600000, .i32⟩ : BufTy).Contents (Elt F)} {x2 : (⟨S50000, .i32⟩ : BufTy).Contents (Elt F)}
  {x3 x4 x5 x6 : (⟨S128x128, .f32⟩ : BufTy).Contents (Elt F)} {x7 : (⟨S128x256, .f32⟩ : BufTy).Contents (Elt F)} {x8 : (⟨S128, .f32⟩ : BufTy).Contents (Elt F)}
  {x9 : (⟨S128x256, .f32⟩ : BufTy).Contents (Elt F)} {x10 : (⟨S128, .f32⟩ : BufTy).Contents (Elt F)} {x11 : (⟨S128x128, .f32⟩ : BufTy).Contents (Elt F)} {x12 : (⟨S128, .f32⟩ : BufTy).Contents (Elt F)}

theorem s0_spec (V : Valuation τ sig (Elt F)) (ha1 : V (Proc.devRef .tc main_arg1) = x1) :
    after s0 V (Proc.devRef .tc main_v1) = val_main_v1 (F := F) x1
      ∧ after s0 V (Proc.devRef .tc main_v3) = val_main_v3 (F := F) x1 := by
  constructor <;> (after_results_simp; rw [ha1]; rfl)

theorem s1_spec (V : Valuation τ sig (Elt F))
    (ha0 : V (Proc.devRef .tc main_arg0) = x0) :
    after s1 V (Proc.devRef .tc main_v4) = val_main_v4 (F := F) x0 := by
  after_results_simp
  rw [ha0]
  rfl

theorem s2_spec (V : Valuation τ sig (Elt F))
    (ha0 : V (Proc.devRef .tc main_arg0) = x0) (h4 : V (Proc.devRef .tc main_v4) = val_main_v4 (F := F) x0) :
    after s2 V (Proc.devRef .tc main_v12) = val_main_v12 (F := F) x0 := by
  after_results_simp
  rw [ha0, h4]
  rfl

theorem s3_spec (V : Valuation τ sig (Elt F))
    (h1 : V (Proc.devRef .tc main_v1) = val_main_v1 (F := F) x1) (h3 : V (Proc.devRef .tc main_v3) = val_main_v3 (F := F) x1) (h12 : V (Proc.devRef .tc main_v12) = val_main_v12 (F := F) x0) (ha3 : V (Proc.devRef .tc main_arg3) = x3) (ha4 : V (Proc.devRef .tc main_arg4) = x4) :
    after s3 V (Proc.devRef .tc main_v36) = val_main_v36 (F := F) x0 x1 x3 x4 := by
  after_results_simp
  rw [h1, h3, h12, ha3, ha4]
  rfl

theorem s4_spec (V : Valuation τ sig (Elt F))
    (h36 : V (Proc.devRef .tc main_v36) = val_main_v36 (F := F) x0 x1 x3 x4) :
    after s4 V (Proc.devRef .tc main_v44) = val_main_v44 (F := F) x0 x1 x3 x4 := by
  after_results_simp
  rw [h36]
  rfl

theorem s5_spec (V : Valuation τ sig (Elt F))
    (h44 : V (Proc.devRef .tc main_v44) = val_main_v44 (F := F) x0 x1 x3 x4) :
    after s5 V (Proc.devRef .tc main_v46) = val_main_v46 (F := F) x0 x1 x3 x4 := by
  after_results_simp
  rw [h44]
  rfl

theorem s6_spec (V : Valuation τ sig (Elt F))
    (h44 : V (Proc.devRef .tc main_v44) = val_main_v44 (F := F) x0 x1 x3 x4) (h46 : V (Proc.devRef .tc main_v46) = val_main_v46 (F := F) x0 x1 x3 x4) :
    after s6 V (Proc.devRef .tc main_v49) = val_main_v49 (F := F) x0 x1 x3 x4 := by
  after_results_simp
  rw [h44, h46]
  rfl

theorem s7_spec (V : Valuation τ sig (Elt F))
    (h49 : V (Proc.devRef .tc main_v49) = val_main_v49 (F := F) x0 x1 x3 x4) (h12 : V (Proc.devRef .tc main_v12) = val_main_v12 (F := F) x0) (ha7 : V (Proc.devRef .tc main_arg7) = x7) (ha8 : V (Proc.devRef .tc main_arg8) = x8) :
    after s7 V (Proc.devRef .tc main_v55) = val_main_v55 (F := F) x0 x1 x3 x4 x7 x8 := by
  after_results_simp
  rw [h49, h12, ha7, ha8]
  rfl

theorem s8_spec (V : Valuation τ sig (Elt F))
    (h55 : V (Proc.devRef .tc main_v55) = val_main_v55 (F := F) x0 x1 x3 x4 x7 x8) :
    after s8 V (Proc.devRef .tc main_v60) = val_main_v60 (F := F) x0 x1 x3 x4 x7 x8 := by
  after_results_simp
  rw [h55]
  rfl

theorem s9_spec (V : Valuation τ sig (Elt F))
    (h1 : V (Proc.devRef .tc main_v1) = val_main_v1 (F := F) x1) (h3 : V (Proc.devRef .tc main_v3) = val_main_v3 (F := F) x1) (h60 : V (Proc.devRef .tc main_v60) = val_main_v60 (F := F) x0 x1 x3 x4 x7 x8) (ha5 : V (Proc.devRef .tc main_arg5) = x5) (ha6 : V (Proc.devRef .tc main_arg6) = x6) :
    after s9 V (Proc.devRef .tc main_v84) = val_main_v84 (F := F) x0 x1 x3 x4 x5 x6 x7 x8 := by
  after_results_simp
  rw [h1, h3, h60, ha5, ha6]
  rfl

theorem s10_spec (V : Valuation τ sig (Elt F))
    (h84 : V (Proc.devRef .tc main_v84) = val_main_v84 (F := F) x0 x1 x3 x4 x5 x6 x7 x8) :
    after s10 V (Proc.devRef .tc main_v92) = val_main_v92 (F := F) x0 x1 x3 x4 x5 x6 x7 x8 := by
  after_results_simp
  rw [h84]
  rfl

theorem s11_spec (V : Valuation τ sig (Elt F))
    (h92 : V (Proc.devRef .tc main_v92) = val_main_v92 (F := F) x0 x1 x3 x4 x5 x6 x7 x8) :
    after s11 V (Proc.devRef .tc main_v94) = val_main_v94 (F := F) x0 x1 x3 x4 x5 x6 x7 x8 := by
  after_results_simp
  rw [h92]
  rfl

theorem s12_spec (V : Valuation τ sig (Elt F))
    (h92 : V (Proc.devRef .tc main_v92) = val_main_v92 (F := F) x0 x1 x3 x4 x5 x6 x7 x8) (h94 : V (Proc.devRef .tc main_v94) = val_main_v94 (F := F) x0 x1 x3 x4 x5 x6 x7 x8) :
    after s12 V (Proc.devRef .tc main_v97) = val_main_v97 (F := F) x0 x1 x3 x4 x5 x6 x7 x8 := by
  after_results_simp
  rw [h92, h94]
  rfl

theorem s13_spec (V : Valuation τ sig (Elt F))
    (h97 : V (Proc.devRef .tc main_v97) = val_main_v97 (F := F) x0 x1 x3 x4 x5 x6 x7 x8) (h60 : V (Proc.devRef .tc main_v60) = val_main_v60 (F := F) x0 x1 x3 x4 x7 x8) (ha9 : V (Proc.devRef .tc main_arg9) = x9) (ha10 : V (Proc.devRef .tc main_arg10) = x10) :
    after s13 V (Proc.devRef .tc main_v103) = val_main_v103 (F := F) x0 x1 x3 x4 x5 x6 x7 x8 x9 x10 := by
  after_results_simp
  rw [h97, h60, ha9, ha10]
  rfl

theorem s14_spec (V : Valuation τ sig (Elt F))
    (h103 : V (Proc.devRef .tc main_v103) = val_main_v103 (F := F) x0 x1 x3 x4 x5 x6 x7 x8 x9 x10) :
    after s14 V (Proc.devRef .tc main_v108) = val_main_v108 (F := F) x0 x1 x3 x4 x5 x6 x7 x8 x9 x10 := by
  after_results_simp
  rw [h103]
  rfl

theorem s15_spec (V : Valuation τ sig (Elt F))
    (h108 : V (Proc.devRef .tc main_v108) = val_main_v108 (F := F) x0 x1 x3 x4 x5 x6 x7 x8 x9 x10) (ha2 : V (Proc.devRef .tc main_arg2) = x2) (ha11 : V (Proc.devRef .tc main_arg11) = x11) (ha12 : V (Proc.devRef .tc main_arg12) = x12) :
    after s15 V (Proc.devRef .tc main_v116) = val_main_v116 (F := F) x0 x1 x2 x3 x4 x5 x6 x7 x8 x9 x10 x11 x12 := by
  after_results_simp
  rw [h108, ha2, ha11, ha12]
  rfl

theorem s16_spec (V : Valuation τ sig (Elt F))
    (h116 : V (Proc.devRef .tc main_v116) = val_main_v116 (F := F) x0 x1 x2 x3 x4 x5 x6 x7 x8 x9 x10 x11 x12) :
    after s16 V (Proc.devRef .tc main_v121) = val_main_v121 (F := F) x0 x1 x2 x3 x4 x5 x6 x7 x8 x9 x10 x11 x12 := by
  after_results_simp
  rw [h116]
  rfl

theorem s17_spec (V : Valuation τ sig (Elt F))
    (h121 : V (Proc.devRef .tc main_v121) = val_main_v121 (F := F) x0 x1 x2 x3 x4 x5 x6 x7 x8 x9 x10 x11 x12) :
    after s17 V (Proc.devRef .tc main_v129) = val_main_v129 (F := F) x0 x1 x2 x3 x4 x5 x6 x7 x8 x9 x10 x11 x12 := by
  after_results_simp
  rw [h121]
  rfl

end Values

abbrev P0 : List (HloOp τ sig (Elt F)) := s0 ++ s1 ++ s2 ++ s3 ++ s4 ++ s5

abbrev P1 : List (HloOp τ sig (Elt F)) := s6 ++ s7 ++ s8 ++ s9 ++ s10 ++ s11

abbrev P2 : List (HloOp τ sig (Elt F)) := s12 ++ s13 ++ s14 ++ s15 ++ s16 ++ s17

abbrev ops : List (HloOp τ sig (Elt F)) := P0 ++ (P1 ++ P2)

theorem carry {l : List (HloOp τ sig (Elt F))} {W : List (Ref sig .tc)}
    (hW : l.Forall fun op => op.writes ⊆ (W.map (Proc.devRef (τ := τ) .tc)).toFinset) {V : Valuation τ sig (Elt F)}
    {r : Ref sig .tc} {v} (h : V (Proc.devRef .tc r) = v) (hr : r ∉ W) : after l V (Proc.devRef .tc r) = v :=
  (after_of_writes_sub l V hW hr).trans h

theorem carryArgs {l : List (HloOp τ sig (Elt F))} {W : List (Ref sig .tc)}
    (hW : l.Forall fun op => op.writes ⊆ (W.map (Proc.devRef (τ := τ) .tc)).toFinset) (hd : ∀ r ∈ argRefs, r ∉ W)
    {V V₀ : Valuation τ sig (Elt F)} (k : ∀ r ∈ argRefs, V (Proc.devRef .tc r) = V₀ (Proc.devRef .tc r)) :
    ∀ r ∈ argRefs, after l V (Proc.devRef .tc r) = V₀ (Proc.devRef .tc r) :=
  fun r hr => carry hW (k r hr) (hd r hr)

theorem ops_spec (V : Valuation τ sig (Elt F)) :
    after ops V (Proc.devRef .tc main_v129)
        = val_main_v129 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
      ∧ ∀ r : Ref sig .tc, r ∈ argRefs → after ops V (Proc.devRef .tc r) = V (Proc.devRef .tc r) := by
  have e : after ops V = after s17 (after s16 (after s15 (after s14 (after s13 (after s12 (after s11 (after s10 (after s9
      (after s8 (after s7 (after s6 (after s5 (after s4 (after s3 (after s2 (after s1 (after s0 V))))))))))))))))) := by
    simp only [ops, P0, P1, P2, after_append]
  rw [e]; clear e
  obtain ⟨h1, h3⟩ := s0_spec V (x1 := V (Proc.devRef .tc main_arg1)) rfl
  have k := carryArgs (V := V) (V₀ := V) s0_writes (by decide) fun _ _ => rfl
  generalize after s0 V = V1 at *
  have h4 := s1_spec V1 (k main_arg0 (by decide))
  replace h1 := carry s1_writes h1 (by decide)
  replace h3 := carry s1_writes h3 (by decide)
  replace k := carryArgs s1_writes (by decide) k
  generalize after s1 V1 = V2 at *
  have h12 := s2_spec V2 (k main_arg0 (by decide)) h4
  replace h1 := carry s2_writes h1 (by decide)
  replace h3 := carry s2_writes h3 (by decide)
  clear h4
  replace k := carryArgs s2_writes (by decide) k
  generalize after s2 V2 = V3 at *
  have h36 := s3_spec V3 h1 h3 h12 (k main_arg3 (by decide)) (k main_arg4 (by decide))
  replace h1 := carry s3_writes h1 (by decide)
  replace h3 := carry s3_writes h3 (by decide)
  replace h12 := carry s3_writes h12 (by decide)
  replace k := carryArgs s3_writes (by decide) k
  generalize after s3 V3 = V4 at *
  have h44 := s4_spec V4 h36
  replace h1 := carry s4_writes h1 (by decide)
  replace h3 := carry s4_writes h3 (by decide)
  replace h12 := carry s4_writes h12 (by decide)
  clear h36
  replace k := carryArgs s4_writes (by decide) k
  generalize after s4 V4 = V5 at *
  have h46 := s5_spec V5 h44
  replace h1 := carry s5_writes h1 (by decide)
  replace h3 := carry s5_writes h3 (by decide)
  replace h12 := carry s5_writes h12 (by decide)
  replace h44 := carry s5_writes h44 (by decide)
  replace k := carryArgs s5_writes (by decide) k
  generalize after s5 V5 = V6 at *
  have h49 := s6_spec V6 h44 h46
  replace h1 := carry s6_writes h1 (by decide)
  replace h3 := carry s6_writes h3 (by decide)
  replace h12 := carry s6_writes h12 (by decide)
  clear h44 h46
  replace k := carryArgs s6_writes (by decide) k
  generalize after s6 V6 = V7 at *
  have h55 := s7_spec V7 h49 h12 (k main_arg7 (by decide)) (k main_arg8 (by decide))
  replace h1 := carry s7_writes h1 (by decide)
  replace h3 := carry s7_writes h3 (by decide)
  clear h49 h12
  replace k := carryArgs s7_writes (by decide) k
  generalize after s7 V7 = V8 at *
  have h60 := s8_spec V8 h55
  replace h1 := carry s8_writes h1 (by decide)
  replace h3 := carry s8_writes h3 (by decide)
  clear h55
  replace k := carryArgs s8_writes (by decide) k
  generalize after s8 V8 = V9 at *
  have h84 := s9_spec V9 h1 h3 h60 (k main_arg5 (by decide)) (k main_arg6 (by decide))
  replace h60 := carry s9_writes h60 (by decide)
  clear h1 h3
  replace k := carryArgs s9_writes (by decide) k
  generalize after s9 V9 = V10 at *
  have h92 := s10_spec V10 h84
  replace h60 := carry s10_writes h60 (by decide)
  clear h84
  replace k := carryArgs s10_writes (by decide) k
  generalize after s10 V10 = V11 at *
  have h94 := s11_spec V11 h92
  replace h60 := carry s11_writes h60 (by decide)
  replace h92 := carry s11_writes h92 (by decide)
  replace k := carryArgs s11_writes (by decide) k
  generalize after s11 V11 = V12 at *
  have h97 := s12_spec V12 h92 h94
  replace h60 := carry s12_writes h60 (by decide)
  clear h92 h94
  replace k := carryArgs s12_writes (by decide) k
  generalize after s12 V12 = V13 at *
  have h103 := s13_spec V13 h97 h60 (k main_arg9 (by decide)) (k main_arg10 (by decide))
  clear h97 h60
  replace k := carryArgs s13_writes (by decide) k
  generalize after s13 V13 = V14 at *
  have h108 := s14_spec V14 h103
  clear h103
  replace k := carryArgs s14_writes (by decide) k
  generalize after s14 V14 = V15 at *
  have h116 := s15_spec V15 h108 (k main_arg2 (by decide)) (k main_arg11 (by decide)) (k main_arg12 (by decide))
  clear h108
  replace k := carryArgs s15_writes (by decide) k
  generalize after s15 V15 = V16 at *
  have h121 := s16_spec V16 h116
  clear h116
  replace k := carryArgs s16_writes (by decide) k
  generalize after s16 V16 = V17 at *
  have h129 := s17_spec V17 h121
  clear h121
  replace k := carryArgs s17_writes (by decide) k
  generalize after s17 V17 = V18 at *
  exact ⟨h129, k⟩

theorem main_part0_eq (c : Dev nD) : main_part0 (F := F) c = seq P0 := rfl

theorem main_part1_eq (c : Dev nD) : main_part1 (F := F) c = seq P1 := rfl

theorem main_part2_eq (c : Dev nD) : main_part2 (F := F) c = seq P2 := rfl

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig := by
  simp only [ops, P0, P1, P2, List.forall_append]
  refine ⟨⟨⟨⟨⟨⟨?_, ?_⟩, ?_⟩, ?_⟩, ?_⟩, ?_⟩, ⟨⟨⟨⟨⟨?_, ?_⟩, ?_⟩, ?_⟩, ?_⟩, ?_⟩, ⟨⟨⟨⟨⟨?_, ?_⟩, ?_⟩, ?_⟩, ?_⟩, ?_⟩⟩ <;>
    simp only [List.Forall, nullary_bufs_sub, unary_bufs_sub, binary_bufs_sub, ternary_bufs_sub, reshape_bufs_sub, and_self]

theorem ops_fresh : ∀ op ∈ (ops : List (HloOp τ sig (Elt F))), op.fresh = ∅ := by
  refine List.forall_iff_forall_mem.mp ?_
  simp only [ops, P0, P1, P2, List.forall_append]
  refine ⟨⟨⟨⟨⟨⟨?_, ?_⟩, ?_⟩, ?_⟩, ?_⟩, ?_⟩, ⟨⟨⟨⟨⟨?_, ?_⟩, ?_⟩, ?_⟩, ?_⟩, ?_⟩, ⟨⟨⟨⟨⟨?_, ?_⟩, ?_⟩, ?_⟩, ?_⟩, ?_⟩⟩ <;> (simp only [List.Forall]; repeat' constructor)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129)
        = Cert.ReferenceIdeal.ReadP.val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v129).trans (ops_spec (launchContents m c)).1,
      (h c main_arg0).trans ((ops_spec (launchContents m c)).2 main_arg0 (by decide)),
      (h c main_arg1).trans ((ops_spec (launchContents m c)).2 main_arg1 (by decide)),
      (h c main_arg2).trans ((ops_spec (launchContents m c)).2 main_arg2 (by decide)),
      (h c main_arg3).trans ((ops_spec (launchContents m c)).2 main_arg3 (by decide)),
      (h c main_arg4).trans ((ops_spec (launchContents m c)).2 main_arg4 (by decide)),
      (h c main_arg5).trans ((ops_spec (launchContents m c)).2 main_arg5 (by decide)),
      (h c main_arg6).trans ((ops_spec (launchContents m c)).2 main_arg6 (by decide)),
      (h c main_arg7).trans ((ops_spec (launchContents m c)).2 main_arg7 (by decide)),
      (h c main_arg8).trans ((ops_spec (launchContents m c)).2 main_arg8 (by decide)),
      (h c main_arg9).trans ((ops_spec (launchContents m c)).2 main_arg9 (by decide)),
      (h c main_arg10).trans ((ops_spec (launchContents m c)).2 main_arg10 (by decide)),
      (h c main_arg11).trans ((ops_spec (launchContents m c)).2 main_arg11 (by decide)),
      (h c main_arg12).trans ((ops_spec (launchContents m c)).2 main_arg12 (by decide))⟩)
    (run_seq scopedRefs_eq scopedSems_eq defs main (fun _ => ops) main_eq (fun _ => ops_sub) m ρ (fun _ => ops_fresh))

end Cert.ReferenceIdeal.HandRun

end
-- ==== Proof.lean ====
import proofs.«425038_j72541997629469_1_alg».proof.Defs
import proofs.«425038_j72541997629469_1_alg».proof.Proof.Gen.Kernel
import proofs.«425038_j72541997629469_1_alg».proof.Proof.Gen.KernelIdeal
import proofs.«425038_j72541997629469_1_alg».proof.Proof.Gen.ReferenceIdeal
import proofs.«425038_j72541997629469_1_alg».proof.Proof.Gen.Pre_finite_inputs
import proofs.«425038_j72541997629469_1_alg».proof.Proof.K.Run
import proofs.«425038_j72541997629469_1_alg».proof.Proof.KI.Run
import proofs.«425038_j72541997629469_1_alg».proof.Proof.KI.Final
import proofs.«425038_j72541997629469_1_alg».proof.Proof.RefRun
import Idealize.ShloMosaic.Adequacy
import Idealize.ShloMosaic.Init

noncomputable section

namespace Cert.Proof

open Idealize.ShloMosaic Idealize.SL.Sem

-- Each frame is the program's run with the result dropped: the run leaves every argument array as launched.
theorem frame_k : Cert.frame_Kernel := fun m ρ _ =>
  (θ_run Cert.Kernel.defs _ _).mono (fun _ h c => (h c).2) (Cert.Kernel.Hand.run_args_result m ρ)

theorem frame_ki : Cert.frame_KernelIdeal := fun m ρ _ =>
  (θ_run Cert.KernelIdeal.defs _ _).mono (fun _ h c => (h c).2) (Cert.KernelIdeal.Hand.run_args_result m ρ)

theorem frame_ri : Cert.frame_ReferenceIdeal := fun m ρ _ =>
  (θ_run Cert.ReferenceIdeal.defs _ _).mono (fun _ h c => (h c).2) (Cert.ReferenceIdeal.HandRun.run (F := Ideal) m ρ)

-- Both runs end at one function of the arguments: the kernel's last region leaves what the reference's last stage computes.
theorem algebraic : Cert.algebraic_KernelIdeal_ReferenceIdeal := by
  intro m ρ m' ρ' _ hagree
  refine ⟨fun c => Cert.KernelIdeal.Hand.o7 m c, Cert.KernelIdeal.Hand.run_args_result m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9, h10, h11, h12⟩ := hagree c
  rw [h0, h1, h2, h3, h4, h5, h6, h7, h8, h9, h10, h11, h12]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
